-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S2x128x16 : Shape := ⟨3, ![2, 128, 16]⟩
abbrev S128x16 : Shape := ⟨2, ![128, 16]⟩
abbrev S16 : Shape := ⟨1, ![16]⟩
abbrev S2x16x10 : Shape := ⟨3, ![2, 16, 10]⟩
abbrev S16x10 : Shape := ⟨2, ![16, 10]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S2x128x16 : S_.BroadcastsInDim S2x128x16 (![] : Fin 0 → Fin S2x128x16.rank)
  reducesTo_S2x128x16_S_d0_1_2 : S2x128x16.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x16x10 : S_.BroadcastsInDim S2x16x10 (![] : Fin 0 → Fin S2x16x10.rank)
  reducesTo_S2x16x10_S_d0_1_2 : S2x16x10.ReducesTo [0, 1, 2] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : IVec S1x1600000 32 := (extractStridedSlice S1x1600000 ![0, 0] · slices_S2x1600000_S1x1600000_0_0) main_arg1
  let main_v40 : IVec S1600000 32 := shapeCast S1600000 main_v39 shapeCasts_S1x1600000_S1600000
  let main_c_14 : IVec S_ 32 := constantI S_ 32 4294867296#32
  let main_v41 : IVec S1600000 32 := broadcastInDim S1600000 ![] bcast_S_S1600000 main_c_14
  let main_v42 : IVec S1600000 1 := cmpi .sge main_v40 main_v41
  let main_v43 : IVec S1x1600000 32 := (extractStridedSlice S1x1600000 ![0, 0] · slices_S2x1600000_S1x1600000_0_0) main_arg1
  let main_v44 : IVec S1600000 32 := shapeCast S1600000 main_v43 shapeCasts_S1x1600000_S1600000
  let main_c_15 : IVec S_ 32 := constantI S_ 32 100000#32
  let main_v45 : IVec S1600000 32 := broadcastInDim S1600000 ![] bcast_S_S1600000 main_c_15
  let main_v46 : IVec S1600000 1 := cmpi .slt main_v44 main_v45
  let main_v47 : IVec S1600000 1 := andi main_v42 main_v46
  let main_c_16 : IVec S_ 1 := constantI S_ 1 1#1
  let main_v48 : IVec S_ 1 := (fun x v => Host.reduce IntOp.andi x v reducesTo_S1600000_S_d0 h_S_) main_v47 main_c_16
  let main_v49 : IVec S_ 1 := andi main_v38 main_v48
  main_v49

def fn_part1 {F : FTy → Type} [FloatOps F] (main_arg1 : IVec S2x1600000 32) (main_arg5 : FVec F S16 .f32) (main_arg6 : FVec F S2x16x10 .f32) (main_arg7 : FVec F S16x10 .f32) (main_arg8 : FVec F S10 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S2x16x10 .f32 := Host.absf main_arg6
  let main_cst_8 : FVec F S_ .f32 := constant S_ .f32 0x7F800000#32
  let main_v25 : FVec F S2x16x10 .f32 := broadcastInDim S2x16x10 ![] bcast_S_S2x16x10 main_cst_8
  let main_v26 : IVec S2x16x10 1 := cmpf .olt main_v24 main_v25
  let main_c_9 : IVec S_ 1 := constantI S_ 1 1#1
  let main_v27 : IVec S_ 1 := (fun x v => Host.reduce IntOp.andi x v reducesTo_S2x16x10_S_d0_1_2 h_S_) main_v26 main_c_9
  let main_v28 : IVec S_ 1 := andi main_v23 main_v27
  let main_v29 : FVec F S16x10 .f32 := Host.absf main_arg7
  let main_cst_10 : FVec F S_ .f32 := constant S_ .f32 0x7F800000#32
  let main_v30 : FVec F S16x10 .f32 := broadcastInDim S16x10 ![] bcast_S_S16x10 main_cst_10
  let main_v31 : IVec S16x10 1 := cmpf .olt main_v29 main_v30
  let main_c_11 : IVec S_ 1 := constantI S_ 1 1#1
  let main_v32 : IVec S_ 1 := (fun x v => Host.reduce IntOp.andi x v reducesTo_S16x10_S_d0_1 h_S_) main_v31 main_c_11
  let main_v33 : IVec S_ 1 := andi main_v28 main_v32
  fn_part2 (F := F) main_arg1 main_arg8 main_v33

def fn {F : FTy → Type} [FloatOps F] (main_arg0 : FVec F S100000x128 .f32) (main_arg1 : IVec S2x1600000 32) (main_arg2 : FVec F S1600000x1 .f32) (main_arg3 : FVec F S2x128x16 .f32) (main_arg4 : FVec F S128x16 .f32) (main_arg5 : FVec F S16 .f32) (main_arg6 : FVec F S2x16x10 .f32) (main_arg7 : FVec F S16x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S2x128x16 .f32 := Host.absf main_arg3
  let main_cst_2 : FVec F S_ .f32 := constant S_ .f32 0x7F800000#32
  let main_v10 : FVec F S2x128x16 .f32 := broadcastInDim S2x128x16 ![] bcast_S_S2x128x16 main_cst_2
  let main_v11 : IVec S2x128x16 1 := cmpf .olt main_v9 main_v10
  let main_c_3 : IVec S_ 1 := constantI S_ 1 1#1
  let main_v12 : IVec S_ 1 := (fun x v => Host.reduce IntOp.andi x v reducesTo_S2x128x16_S_d0_1_2 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg1 main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S2x128x16 : Shape := ⟨3, ![2, 128, 16]⟩
abbrev S128x16 : Shape := ⟨2, ![128, 16]⟩
abbrev S16 : Shape := ⟨1, ![16]⟩
abbrev S2x16x10 : Shape := ⟨3, ![2, 16, 10]⟩
abbrev S16x10 : Shape := ⟨2, ![16, 10]⟩
abbrev S10 : Shape := ⟨1, ![10]⟩
abbrev S1x1600000 : Shape := ⟨2, ![1, 1600000]⟩
abbrev S1600000 : Shape := ⟨1, ![1600000]⟩
abbrev S1x128x16 : Shape := ⟨3, ![1, 128, 16]⟩
abbrev S128x48 : Shape := ⟨2, ![128, 48]⟩
abbrev S100000x48 : Shape := ⟨2, ![100000, 48]⟩
abbrev S5000x128 : Shape := ⟨2, ![5000, 128]⟩
abbrev S5000x48 : Shape := ⟨2, ![5000, 48]⟩
abbrev S100000x16 : Shape := ⟨2, ![100000, 16]⟩
abbrev S_ : Shape := ⟨0, ![]⟩
abbrev S1 : Shape := ⟨1, ![1]⟩
abbrev S1x1 : Shape := ⟨2, ![1, 1]⟩
abbrev S1600000x16 : Shape := ⟨2, ![1600000, 16]⟩
abbrev S4000x16 : Shape := ⟨2, ![4000, 16]⟩
abbrev S4000x1 : Shape := ⟨2, ![4000, 1]⟩
abbrev S100000 : Shape := ⟨1, ![100000]⟩
abbrev S100000x1 : Shape := ⟨2, ![100000, 1]⟩
abbrev S1x16 : Shape := ⟨2, ![1, 16]⟩
abbrev S5000x16 : Shape := ⟨2, ![5000, 16]⟩
abbrev S5000x1 : Shape := ⟨2, ![5000, 1]⟩
abbrev S1x16x10 : Shape := ⟨3, ![1, 16, 10]⟩
abbrev S16x30 : Shape := ⟨2, ![16, 30]⟩
abbrev S100000x30 : Shape := ⟨2, ![100000, 30]⟩
abbrev S5000x30 : Shape := ⟨2, ![5000, 30]⟩
abbrev S100000x10 : Shape := ⟨2, ![100000, 10]⟩
abbrev S1600000x10 : Shape := ⟨2, ![1600000, 10]⟩
abbrev S4000x10 : Shape := ⟨2, ![4000, 10]⟩
abbrev S1x10 : Shape := ⟨2, ![1, 10]⟩
abbrev S5000x10 : Shape := ⟨2, ![5000, 10]⟩

abbrev nBuf : Space → Nat
  | .hbm => 151
  | .vmem => 44
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S2x128x16, .f32⟩
  | 4 => ⟨S128x16, .f32⟩
  | 5 => ⟨S16, .f32⟩
  | 6 => ⟨S2x16x10, .f32⟩
  | 7 => ⟨S16x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S1x128x16, .f32⟩
  | 14 => ⟨S128x16, .f32⟩
  | 15 => ⟨S1x128x16, .f32⟩
  | 16 => ⟨S128x16, .f32⟩
  | 17 => ⟨S128x48, .f32⟩
  | 18 => ⟨S100000x48, .f32⟩
  | 19 => ⟨S100000x16, .f32⟩
  | 20 => ⟨S100000x16, .f32⟩
  | 21 => ⟨S100000x16, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1, .i32⟩
  | 31 => ⟨S_, .i32⟩
  | 32 => ⟨S1600000x1, .i32⟩
  | 33 => ⟨S1600000x1, .i1⟩
  | 34 => ⟨S1x1, .i32⟩
  | 35 => ⟨S1600000x1, .i32⟩
  | 36 => ⟨S1600000x1, .i1⟩
  | 37 => ⟨S1600000x1, .i1⟩
  | 38 => ⟨S_, .i1⟩
  | 39 => ⟨S1600000, .i1⟩
  | 40 => ⟨S1600000x16, .f32⟩
  | 41 => ⟨S1600000x16, .i1⟩
  | 42 => ⟨S_, .f32⟩
  | 43 => ⟨S1600000x16, .f32⟩
  | 44 => ⟨S1600000x16, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1, .i32⟩
  | 54 => ⟨S_, .i32⟩
  | 55 => ⟨S1600000x1, .i32⟩
  | 56 => ⟨S1600000x1, .i1⟩
  | 57 => ⟨S1x1, .i32⟩
  | 58 => ⟨S1600000x1, .i32⟩
  | 59 => ⟨S1600000x1, .i1⟩
  | 60 => ⟨S1600000x1, .i1⟩
  | 61 => ⟨S_, .i1⟩
  | 62 => ⟨S1600000, .i1⟩
  | 63 => ⟨S1600000x16, .f32⟩
  | 64 => ⟨S1600000x16, .i1⟩
  | 65 => ⟨S_, .f32⟩
  | 66 => ⟨S1600000x16, .f32⟩
  | 67 => ⟨S1600000x16, .f32⟩
  | 68 => ⟨S1600000x16, .f32⟩
  | 69 => ⟨S_, .f32⟩
  | 70 => ⟨S100000x16, .f32⟩
  | 71 => ⟨S1600000x1, .i32⟩
  | 72 => ⟨S100000x16, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S100000x1, .f32⟩
  | 80 => ⟨S1x16, .f32⟩
  | 81 => ⟨S100000x16, .f32⟩
  | 82 => ⟨S1x16x10, .f32⟩
  | 83 => ⟨S16x10, .f32⟩
  | 84 => ⟨S1x16x10, .f32⟩
  | 85 => ⟨S16x10, .f32⟩
  | 86 => ⟨S16x30, .f32⟩
  | 87 => ⟨S100000x30, .f32⟩
  | 88 => ⟨S100000x10, .f32⟩
  | 89 => ⟨S100000x10, .f32⟩
  | 90 => ⟨S100000x10, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1, .i32⟩
  | 100 => ⟨S_, .i32⟩
  | 101 => ⟨S1600000x1, .i32⟩
  | 102 => ⟨S1600000x1, .i1⟩
  | 103 => ⟨S1x1, .i32⟩
  | 104 => ⟨S1600000x1, .i32⟩
  | 105 => ⟨S1600000x1, .i1⟩
  | 106 => ⟨S1600000x1, .i1⟩
  | 107 => ⟨S_, .i1⟩
  | 108 => ⟨S1600000, .i1⟩
  | 109 => ⟨S1600000x10, .f32⟩
  | 110 => ⟨S1600000x10, .i1⟩
  | 111 => ⟨S_, .f32⟩
  | 112 => ⟨S1600000x10, .f32⟩
  | 113 => ⟨S1600000x10, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1, .i32⟩
  | 123 => ⟨S_, .i32⟩
  | 124 => ⟨S1600000x1, .i32⟩
  | 125 => ⟨S1600000x1, .i1⟩
  | 126 => ⟨S1x1, .i32⟩
  | 127 => ⟨S1600000x1, .i32⟩
  | _ => ⟨S100000x128, .f32⟩

abbrev hbmTy0_1 (i : Nat) : BufTy := match i % 128 with
  | 0 => ⟨S1600000x1, .i1⟩
  | 1 => ⟨S1600000x1, .i1⟩
  | 2 => ⟨S_, .i1⟩
  | 3 => ⟨S1600000, .i1⟩
  | 4 => ⟨S1600000x10, .f32⟩
  | 5 => ⟨S1600000x10, .i1⟩
  | 6 => ⟨S_, .f32⟩
  | 7 => ⟨S1600000x10, .f32⟩
  | 8 => ⟨S1600000x10, .f32⟩
  | 9 => ⟨S1600000x10, .f32⟩
  | 10 => ⟨S_, .f32⟩
  | 11 => ⟨S100000x10, .f32⟩
  | 12 => ⟨S1600000x1, .i32⟩
  | 13 => ⟨S100000x10, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S100000x1, .f32⟩
  | 21 => ⟨S1x10, .f32⟩
  | 22 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x48, .f32⟩
  | .local _ .vmem, ⟨3, _⟩ => ⟨S5000x48, .f32⟩
  | .local _ .vmem, ⟨4, _⟩ => ⟨S5000x48, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x1, .f32⟩
  | .local _ .vmem, ⟨10, _⟩ => ⟨S4000x1, .f32⟩
  | .local _ .vmem, ⟨11, _⟩ => ⟨S4000x16, .f32⟩
  | .local _ .vmem, ⟨12, _⟩ => ⟨S4000x16, .f32⟩
  | .local _ .vmem, ⟨13, _⟩ => ⟨S5000x16, .f32⟩
  | .local _ .vmem, ⟨14, _⟩ => ⟨S5000x16, .f32⟩
  | .local _ .vmem, ⟨15, _⟩ => ⟨S5000x1, .f32⟩
  | .local _ .vmem, ⟨16, _⟩ => ⟨S5000x1, .f32⟩
  | .local _ .vmem, ⟨17, _⟩ => ⟨S5000x16, .f32⟩
  | .local _ .vmem, ⟨18, _⟩ => ⟨S5000x16, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x16, .f32⟩
  | .local _ .vmem, ⟨24, _⟩ => ⟨S16x30, .f32⟩
  | .local _ .vmem, ⟨25, _⟩ => ⟨S5000x30, .f32⟩
  | .local _ .vmem, ⟨26, _⟩ => ⟨S5000x30, .f32⟩
  | .local _ .vmem, ⟨27, _⟩ => ⟨S4000x10, .f32⟩
  | .local _ .vmem, ⟨28, _⟩ => ⟨S4000x10, .f32⟩
  | .local _ .vmem, ⟨29, _⟩ => ⟨S4000x10, .f32⟩
  | .local _ .vmem, ⟨30, _⟩ => ⟨S4000x10, .f32⟩
  | .local _ .vmem, ⟨31, _⟩ => ⟨S4000x1, .f32⟩
  | .local _ .vmem, ⟨32, _⟩ => ⟨S4000x1, .f32⟩
  | .local _ .vmem, ⟨33, _⟩ => ⟨S4000x10, .f32⟩
  | .local _ .vmem, ⟨34, _⟩ => ⟨S4000x10, .f32⟩
  | .local _ .vmem, ⟨35, _⟩ => ⟨S5000x10, .f32⟩
  | .local _ .vmem, ⟨36, _⟩ => ⟨S5000x10, .f32⟩
  | .local _ .vmem, ⟨37, _⟩ => ⟨S5000x1, .f32⟩
  | .local _ .vmem, ⟨38, _⟩ => ⟨S5000x1, .f32⟩
  | .local _ .vmem, ⟨39, _⟩ => ⟨S5000x10, .f32⟩
  | .local _ .vmem, ⟨40, _⟩ => ⟨S5000x10, .f32⟩
  | .local _ .vmem, ⟨41, _⟩ => ⟨S1x10, .f32⟩
  | .local _ .vmem, ⟨42, _⟩ => ⟨S5000x10, .f32⟩
  | .local _ .vmem, ⟨43, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v13 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v14 : Ref sig .tc := ⟨.hbm, 67, rfl⟩
abbrev main_v15 : Ref sig .tc := ⟨.hbm, 68, rfl⟩
abbrev main_cst : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_0 : Ref sig .tc := ⟨.hbm, 73, rfl⟩
abbrev main_v19 : Ref sig .tc := ⟨.hbm, 74, rfl⟩
abbrev main_cst_1 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v35 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v36 : Ref sig .tc := ⟨.hbm, 136, rfl⟩
abbrev main_v37 : Ref sig .tc := ⟨.hbm, 137, rfl⟩
abbrev main_cst_2 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_cst_3 : Ref sig .tc := ⟨.hbm, 142, rfl⟩
abbrev main_v41 : Ref sig .tc := ⟨.hbm, 143, rfl⟩
abbrev main_cst_4 : Ref sig .tc := ⟨.hbm, 144, rfl⟩
abbrev main_v42 : Ref sig .tc := ⟨.hbm, 145, rfl⟩
abbrev main_v43 : Ref sig .tc := ⟨.hbm, 146, rfl⟩
abbrev main_v44 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem4_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x30 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x30 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x10 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x10 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x10 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x128x16_S1x128x16_0_0_0 : S2x128x16.Slices ![0, 0, 0] S1x128x16
  shapeCasts_S1x128x16_S128x16 : S1x128x16.ShapeCasts S128x16
  slices_S2x128x16_S1x128x16_1_0_0 : S2x128x16.Slices ![1, 0, 0] S1x128x16
  concatenates_S128x16_S128x16_S128x16_S128x48_d1 : Shape.Concatenates [S128x16, S128x16, S128x16] S128x48 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  shapeCasts_S128x48_S128x48 : S128x48.ShapeCasts S128x48
  inb_S5000x48_S5000x48_0_0 : ∀ a, (![0, 0] : Fin 2 → Nat) a + S5000x48.size a ≤ S5000x48.size a
  h_S5000x48 : 0 < S5000x48.numel
  slices_S100000x48_S100000x16_0_0 : S100000x48.Slices ![0, 0] S100000x16
  slices_S100000x48_S100000x16_0_16 : S100000x48.Slices ![0, 16] S100000x16
  slices_S100000x48_S100000x16_0_32 : S100000x48.Slices ![0, 32] S100000x16
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  inb_S4000x1_S4000x1_0_0 : ∀ a, (![0, 0] : Fin 2 → Nat) a + S4000x1.size a ≤ S4000x1.size a
  h_S4000x1 : 0 < S4000x1.numel
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  broadcasts_S4000x1_S4000x16 : S4000x1.Broadcasts S4000x16
  bcast_S_S100000x16 : S_.BroadcastsInDim S100000x16 (![] : Fin 0 → Fin S100000x16.rank)
  bcast_S_S100000 : S_.BroadcastsInDim S100000 (![] : Fin 0 → Fin S100000.rank)
  shapeCasts_S100000_S100000x1 : S100000.ShapeCasts S100000x1
  shapeCasts_S16_S1x16 : S16.ShapeCasts S1x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  slices_S2x16x10_S1x16x10_0_0_0 : S2x16x10.Slices ![0, 0, 0] S1x16x10
  shapeCasts_S1x16x10_S16x10 : S1x16x10.ShapeCasts S16x10
  slices_S2x16x10_S1x16x10_1_0_0 : S2x16x10.Slices ![1, 0, 0] S1x16x10
  concatenates_S16x10_S16x10_S16x10_S16x30_d1 : Shape.Concatenates [S16x10, S16x10, S16x10] S16x30 1
  inb_S16x30_S16x30_0_0 : ∀ a, (![0, 0] : Fin 2 → Nat) a + S16x30.size a ≤ S16x30.size a
  h_S16x30 : 0 < S16x30.numel
  shapeCasts_S16x30_S16x30 : S16x30.ShapeCasts S16x30
  inb_S5000x30_S5000x30_0_0 : ∀ a, (![0, 0] : Fin 2 → Nat) a + S5000x30.size a ≤ S5000x30.size a
  h_S5000x30 : 0 < S5000x30.numel
  slices_S100000x30_S100000x10_0_0 : S100000x30.Slices ![0, 0] S100000x10
  slices_S100000x30_S100000x10_0_10 : S100000x30.Slices ![0, 10] S100000x10
  slices_S100000x30_S100000x10_0_20 : S100000x30.Slices ![0, 20] S100000x10
  bcast_S1600000_S1600000x10_0 : S1600000.BroadcastsInDim S1600000x10 (![0] : Fin 1 → Fin S1600000x10.rank)
  bcast_S_S1600000x10 : S_.BroadcastsInDim S1600000x10 (![] : Fin 0 → Fin S1600000x10.rank)
  inb_S4000x10_S4000x10_0_0 : ∀ a, (![0, 0] : Fin 2 → Nat) a + S4000x10.size a ≤ S4000x10.size a
  h_S4000x10 : 0 < S4000x10.numel
  shapeCasts_S4000x10_S4000x10 : S4000x10.ShapeCasts S4000x10
  broadcasts_S4000x1_S4000x10 : S4000x1.Broadcasts S4000x10
  bcast_S_S100000x10 : S_.BroadcastsInDim S100000x10 (![] : Fin 0 → Fin S100000x10.rank)
  shapeCasts_S10_S1x10 : S10.ShapeCasts S1x10
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  broadcasts_S5000x1_S5000x10 : S5000x1.Broadcasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  dot_S5000x128_S128x48_S5000x48_1_0_0_1_n_n_wf : DotDims.WF S5000x128 S128x48 S5000x48 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  scatter_S100000_S1600000x1_S1600000_n_0_0_1_wf : ScatterDims.WF S100000 S1600000x1 S1600000 [] [0] [0] 1
  dot_S5000x16_S16x30_S5000x30_1_0_0_1_n_n_wf : DotDims.WF S5000x16 S16x30 S5000x30 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x48.size a ≤ S100000x48.size a
  hwx0_2 : ∀ i : grid0.Coords, EltTy.bits .f32 = 32 ∨ (Rect.block (s := S100000x48) S5000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S1600000x16.size a
  hwx1_0 : ∀ i : grid1.Coords, EltTy.bits .f32 = 32 ∨ (Rect.block (s := S1600000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S1600000x16.size a
  hwx1_1 : ∀ i : grid1.Coords, EltTy.bits .f32 = 32 ∨ (Rect.block (s := S1600000x16) S4000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S1600000x1.size a
  hwx1_2 : ∀ i : grid1.Coords, EltTy.bits .f32 = 32 ∨ (Rect.block (s := S1600000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x16.size a ≤ S1600000x16.size a
  hwx1_3 : ∀ i : grid1.Coords, EltTy.bits .f32 = 32 ∨ (Rect.block (s := S1600000x16) S4000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S100000x16.size a
  hwx2_4 : ∀ i : grid2.Coords, EltTy.bits .f32 = 32 ∨ (Rect.block (s := S100000x16) S5000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x30.size a ≤ S16x30.size a
  hwx3_1 : ∀ i : grid3.Coords, EltTy.bits .f32 = 32 ∨ (Rect.block (s := S16x30) S16x30.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x30.size a ≤ S100000x30.size a
  hwx3_2 : ∀ i : grid3.Coords, EltTy.bits .f32 = 32 ∨ (Rect.block (s := S100000x30) S5000x30.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x10.size a ≤ S1600000x10.size a
  hwx4_0 : ∀ i : grid4.Coords, EltTy.bits .f32 = 32 ∨ (Rect.block (s := S1600000x10) S4000x10.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x10.size a ≤ S1600000x10.size a
  hwx4_1 : ∀ i : grid4.Coords, EltTy.bits .f32 = 32 ∨ (Rect.block (s := S1600000x10) S4000x10.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S1600000x1.size a
  hwx4_2 : ∀ i : grid4.Coords, EltTy.bits .f32 = 32 ∨ (Rect.block (s := S1600000x1) S4000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x10.size a ≤ S1600000x10.size a
  hwx4_3 : ∀ i : grid4.Coords, EltTy.bits .f32 = 32 ∨ (Rect.block (s := S1600000x10) S4000x10.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x10.size a ≤ S100000x10.size a
  hwx5_0 : ∀ i : grid5.Coords, EltTy.bits .f32 = 32 ∨ (Rect.block (s := S100000x10) S5000x10.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x10.size a ≤ S100000x10.size a
  hwx5_2 : ∀ i : grid5.Coords, EltTy.bits .f32 = 32 ∨ (Rect.block (s := S100000x10) S5000x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x10.size a ≤ S1x10.size a
  hwx5_3 : ∀ i : grid5.Coords, EltTy.bits .f32 = 32 ∨ (Rect.block (s := S1x10) S1x10.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x10.size a ≤ S100000x10.size a
  hwx5_4 : ∀ i : grid5.Coords, EltTy.bits .f32 = 32 ∨ (Rect.block (s := S100000x10) S5000x10.size (cc5_transform_4 i) (hinb5_4 i)).WholeWords (EltTy.packing .f32)

variable [Facts₀]

def dot_S5000x128_S128x48_S5000x48_1_0_0_1_n_n : DotDims S5000x128 S128x48 S5000x48 where
  lhsContracting := [1]
  rhsContracting := [0]
  lhsNonContracting := [0]
  rhsNonContracting := [1]
  lhsBatch := []
  rhsBatch := []
  wf := dot_S5000x128_S128x48_S5000x48_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x16_S16x30_S5000x30_1_0_0_1_n_n : DotDims S5000x16 S16x30 S5000x30 where
  lhsContracting := [1]
  rhsContracting := [0]
  lhsNonContracting := [0]
  rhsNonContracting := [1]
  lhsBatch := []
  rhsBatch := []
  wf := dot_S5000x16_S16x30_S5000x30_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S4000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v25) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S16x30.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S5000x30.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S4000x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S4000x10.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v37) S4000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v40) S5000x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v45) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v34) S5000x10.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v46) S1x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v47) S5000x10.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S2x128x16 : Shape := ⟨3, ![2, 128, 16]⟩
abbrev S128x16 : Shape := ⟨2, ![128, 16]⟩
abbrev S16 : Shape := ⟨1, ![16]⟩
abbrev S2x16x10 : Shape := ⟨3, ![2, 16, 10]⟩
abbrev S16x10 : Shape := ⟨2, ![16, 10]⟩
abbrev S10 : Shape := ⟨1, ![10]⟩
abbrev S1x1600000 : Shape := ⟨2, ![1, 1600000]⟩
abbrev S1600000 : Shape := ⟨1, ![1600000]⟩
abbrev S1x128x16 : Shape := ⟨3, ![1, 128, 16]⟩
abbrev S100000x16 : Shape := ⟨2, ![100000, 16]⟩
abbrev S_ : Shape := ⟨0, ![]⟩
abbrev S1600000x16 : Shape := ⟨2, ![1600000, 16]⟩
abbrev S100000 : Shape := ⟨1, ![100000]⟩
abbrev S100000x1 : Shape := ⟨2, ![100000, 1]⟩
abbrev S1x16 : Shape := ⟨2, ![1, 16]⟩
abbrev S1x16x10 : Shape := ⟨3, ![1, 16, 10]⟩
abbrev S100000x10 : Shape := ⟨2, ![100000, 10]⟩
abbrev S1600000x10 : Shape := ⟨2, ![1600000, 10]⟩
abbrev S1x10 : Shape := ⟨2, ![1, 10]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S2x128x16, .f32⟩
  | 4 => ⟨S128x16, .f32⟩
  | 5 => ⟨S16, .f32⟩
  | 6 => ⟨S2x16x10, .f32⟩
  | 7 => ⟨S16x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S1x128x16, .f32⟩
  | 14 => ⟨S128x16, .f32⟩
  | 15 => ⟨S100000x16, .f32⟩
  | 16 => ⟨S1x128x16, .f32⟩
  | 17 => ⟨S128x16, .f32⟩
  | 18 => ⟨S100000x16, .f32⟩
  | 19 => ⟨S1600000, .f32⟩
  | 20 => ⟨S_, .f32⟩
  | 21 => ⟨S1600000, .f32⟩
  | 22 => ⟨S1600000, .f32⟩
  | 23 => ⟨S1600000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x16, .f32⟩
  | 33 => ⟨S1600000x16, .f32⟩
  | 34 => ⟨S1600000x16, .f32⟩
  | 35 => ⟨S1600000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x16, .f32⟩
  | 45 => ⟨S1600000x16, .f32⟩
  | 46 => ⟨S1600000x16, .f32⟩
  | 47 => ⟨S1600000x16, .f32⟩
  | 48 => ⟨S_, .f32⟩
  | 49 => ⟨S100000x16, .f32⟩
  | 50 => ⟨S1600000x1, .i32⟩
  | 51 => ⟨S100000x16, .f32⟩
  | 52 => ⟨S_, .f32⟩
  | 53 => ⟨S1600000, .f32⟩
  | 54 => ⟨S_, .f32⟩
  | 55 => ⟨S100000, .f32⟩
  | 56 => ⟨S1600000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x16, .f32⟩
  | 63 => ⟨S100000x16, .f32⟩
  | 64 => ⟨S100000x16, .f32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .i1⟩
  | 72 => ⟨S_, .f32⟩
  | 73 => ⟨S100000x16, .f32⟩
  | 74 => ⟨S100000x16, .i1⟩
  | 75 => ⟨S_, .f32⟩
  | 76 => ⟨S_, .f32⟩
  | 77 => ⟨S100000x16, .f32⟩
  | 78 => ⟨S100000x16, .f32⟩
  | 79 => ⟨S100000x16, .f32⟩
  | 80 => ⟨S_, .f32⟩
  | 81 => ⟨S100000x16, .f32⟩
  | 82 => ⟨S100000x16, .f32⟩
  | 83 => ⟨S100000x16, .f32⟩
  | 84 => ⟨S1x16x10, .f32⟩
  | 85 => ⟨S16x10, .f32⟩
  | 86 => ⟨S100000x10, .f32⟩
  | 87 => ⟨S1x16x10, .f32⟩
  | 88 => ⟨S16x10, .f32⟩
  | 89 => ⟨S100000x10, .f32⟩
  | 90 => ⟨S1600000, .f32⟩
  | 91 => ⟨S_, .f32⟩
  | 92 => ⟨S1600000, .f32⟩
  | 93 => ⟨S1600000, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x10, .f32⟩
  | 104 => ⟨S1600000x10, .f32⟩
  | 105 => ⟨S1600000x10, .f32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x10, .f32⟩
  | 116 => ⟨S1600000x10, .f32⟩
  | 117 => ⟨S1600000x10, .f32⟩
  | 118 => ⟨S1600000x10, .f32⟩
  | 119 => ⟨S_, .f32⟩
  | 120 => ⟨S100000x10, .f32⟩
  | 121 => ⟨S1600000x1, .i32⟩
  | 122 => ⟨S100000x10, .f32⟩
  | 123 => ⟨S_, .f32⟩
  | 124 => ⟨S1600000, .f32⟩
  | 125 => ⟨S_, .f32⟩
  | 126 => ⟨S100000, .f32⟩
  | 127 => ⟨S1600000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x10, .f32⟩
  | 6 => ⟨S100000x10, .f32⟩
  | 7 => ⟨S100000x10, .f32⟩
  | 8 => ⟨S100000x10, .f32⟩
  | 9 => ⟨S1x10, .f32⟩
  | 10 => ⟨S100000x10, .f32⟩
  | 11 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_cst_1 : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_v4 : Ref sig .tc := ⟨.hbm, 78, rfl⟩
abbrev main_call0_v5 : Ref sig .tc := ⟨.hbm, 79, rfl⟩
abbrev main_call0_cst_2 : Ref sig .tc := ⟨.hbm, 80, rfl⟩
abbrev main_call0_v6 : Ref sig .tc := ⟨.hbm, 81, rfl⟩
abbrev main_call0_v7 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_7 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_8 : Ref sig .tc := ⟨.hbm, 95, rfl⟩
abbrev main_v62 : Ref sig .tc := ⟨.hbm, 96, rfl⟩
abbrev main_v63 : Ref sig .tc := ⟨.hbm, 97, rfl⟩
abbrev main_c_9 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_10 : Ref sig .tc := ⟨.hbm, 107, rfl⟩
abbrev main_v72 : Ref sig .tc := ⟨.hbm, 108, rfl⟩
abbrev main_v73 : Ref sig .tc := ⟨.hbm, 109, rfl⟩
abbrev main_c_11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_12 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_13 : Ref sig .tc := ⟨.hbm, 123, rfl⟩
abbrev main_v85 : Ref sig .tc := ⟨.hbm, 124, rfl⟩
abbrev main_cst_14 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_15 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x128x16_S1x128x16_0_0_0 : S2x128x16.Slices ![0, 0, 0] S1x128x16
  shapeCasts_S1x128x16_S128x16 : S1x128x16.ShapeCasts S128x16
  slices_S2x128x16_S1x128x16_1_0_0 : S2x128x16.Slices ![1, 0, 0] S1x128x16
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  slices_S2x16x10_S1x16x10_0_0_0 : S2x16x10.Slices ![0, 0, 0] S1x16x10
  shapeCasts_S1x16x10_S16x10 : S1x16x10.ShapeCasts S16x10
  slices_S2x16x10_S1x16x10_1_0_0 : S2x16x10.Slices ![1, 0, 0] S1x16x10
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  scatter_S100000_S1600000x1_S1600000_n_0_0_1_wf : ScatterDims.WF S100000 S1600000x1 S1600000 [] [0] [0] 1
  dot_S100000x16_S16x10_S100000x10_1_0_0_1_n_n_wf : DotDims.WF S100000x16 S16x10 S100000x10 [1] [0] [0] [1] [] []
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf

class Facts : Prop extends Facts₀ where

variable [Facts]
-- ==== Proof.K.Reg0.lean ====
import proofs.«417496_j30210799960814_2_alg».proof.Proof.Gen.Kernel.Launch
import proofs.«417496_j30210799960814_2_alg».proof.Proof.Gen.Kernel.Skeleton
import proofs.«417496_j30210799960814_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_out : Rect S5000x48 := Rect.unit (s := S5000x48) ![0, 0] S5000x48.size inb_S5000x48_S5000x48_0_0
abbrev r0_x : Rect S5000x128 := Rect.unit (s := S5000x128) ![0, 0] S5000x128.size inb_S5000x128_S5000x128_0_0
abbrev r0_w : Rect S128x48 := Rect.unit (s := S128x48) ![0, 0] S128x48.size inb_S128x48_S128x48_0_0

def out0_2 (x0 : Vec F S5000x128 .f32) (x1 : Vec F S128x48 .f32) : Vec F S5000x48 .f32 :=
  View.canon [⟨r0_out, k0_pay1 (View.ld x0 r0_x) (View.ld x1 r0_w)⟩]

theorem sound_kernel0 (c : Dev nD) (E : Set ℕ) (i : grid0.Coords) (arg1 : Memref sig .tc .vmem S5000x128 .f32) (harg1 : arg1.IsWhole)
    (arg2 : Memref sig .tc .vmem S128x48 .f32) (harg2 : arg2.IsWhole) (arg3 : Memref sig .tc .vmem S5000x48 .f32) (harg3 : arg3.IsWhole)
    (x0 : Vec F S5000x128 .f32) (x1 : Vec F S128x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x48.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1]
  rw [after0_2]
  show _ ⊢ wp _ _ _ (bodyAt0 t) fun _ => iprop((dat0 V c).Φ t.castSucc ∗ (dat0 V c).owesAt () t.castSucc ∗ _)
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe
  isplitl [H0]; · iexact H0
  iexact H1

end Cert.Kernel.Frm

end
-- ==== Proof.K.Reg1.lean ====
import proofs.«417496_j30210799960814_2_alg».proof.Proof.Gen.Kernel.Launch
import proofs.«417496_j30210799960814_2_alg».proof.Proof.Gen.Kernel.Skeleton
import proofs.«417496_j30210799960814_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S4000x16 := Rect.unit (s := S4000x16) ![0, 0] S4000x16.size inb_S4000x16_S4000x16_0_0
abbrev r1_u : Rect S4000x1 := Rect.unit (s := S4000x1) ![0, 0] S4000x1.size inb_S4000x1_S4000x1_0_0

def out1_3 (x0 : Vec F S4000x16 .f32) (x1 : Vec F S4000x16 .f32) (x2 : Vec F S4000x1 .f32) : Vec F S4000x16 .f32 :=
  View.canon [⟨r1_a, k1_pay1 (View.ld x2 r1_u) (View.ld x0 r1_a) (View.ld x1 r1_a)⟩]

theorem sound_kernel1 (c : Dev nD) (E : Set ℕ) (i : grid1.Coords) (arg1 : Memref sig .tc .vmem S4000x16 .f32) (harg1 : arg1.IsWhole)
    (arg2 : Memref sig .tc .vmem S4000x16 .f32) (harg2 : arg2.IsWhole) (arg3 : Memref sig .tc .vmem S4000x1 .f32) (harg3 : arg3.IsWhole)
    (arg4 : Memref sig .tc .vmem S4000x16 .f32) (harg4 : arg4.IsWhole)
    (x0 : Vec F S4000x16 .f32) (x1 : Vec F S4000x16 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__blend_kernel i arg1 harg1 arg2 harg2 arg3 harg3 arg4 harg4) K := by
  simp only [cc1__blend_kernel_eq_skeleton]; unfold cc1__blend_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x16.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2]
  rw [after1_3]
  show _ ⊢ wp _ _ _ (bodyAt1 t) fun _ => iprop((dat1 V c).Φ t.castSucc ∗ (dat1 V c).owesAt () t.castSucc ∗ _)
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe
  isplitl [H0]; · iexact H0
  isplitl [H1]; · iexact H1
  iexact H2

end Cert.Kernel.Frm

end
-- ==== Proof.K.Reg2.lean ====
import proofs.«417496_j30210799960814_2_alg».proof.Proof.Gen.Kernel.Launch
import proofs.«417496_j30210799960814_2_alg».proof.Proof.Gen.Kernel.Skeleton
import proofs.«417496_j30210799960814_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x16 := Rect.unit (s := S5000x16) ![0, 0] S5000x16.size inb_S5000x16_S5000x16_0_0
abbrev r2_d : Rect S5000x1 := Rect.unit (s := S5000x1) ![0, 0] S5000x1.size inb_S5000x1_S5000x1_0_0
abbrev r2_b : Rect S1x16 := Rect.unit (s := S1x16) ![0, 0] S1x16.size inb_S1x16_S1x16_0_0

def out2_4 (x0 : Vec F S5000x16 .f32) (x1 : Vec F S5000x1 .f32) (x2 : Vec F S5000x16 .f32) (x3 : Vec F S1x16 .f32) : Vec F S5000x16 .f32 :=
  View.canon [⟨r2_a, k2_pay1 (View.ld x1 r2_d) (View.ld x0 r2_a) (View.ld x2 r2_a) (View.ld x3 r2_b)⟩]

theorem sound_kernel2 (c : Dev nD) (E : Set ℕ) (i : grid2.Coords) (arg1 : Memref sig .tc .vmem S5000x16 .f32) (harg1 : arg1.IsWhole)
    (arg2 : Memref sig .tc .vmem S5000x1 .f32) (harg2 : arg2.IsWhole) (arg3 : Memref sig .tc .vmem S5000x16 .f32) (harg3 : arg3.IsWhole)
    (arg4 : Memref sig .tc .vmem S1x16 .f32) (harg4 : arg4.IsWhole) (arg5 : Memref sig .tc .vmem S5000x16 .f32) (harg5 : arg5.IsWhole)
    (x0 : Vec F S5000x16 .f32) (x1 : Vec F S5000x1 .f32) (x2 : Vec F S5000x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x16.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2, before2_3]
  rw [after2_4]
  show _ ⊢ wp _ _ _ (bodyAt2 t) fun _ => iprop((dat2 V c).Φ t.castSucc ∗ (dat2 V c).owesAt () t.castSucc ∗ _)
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  iframe H0 H1 H2 H3
  isplitl [H4]; · iexists _; iexact H4
  iintro ⟨H0, H1, H2, H3, H4⟩
  iframe
  isplitl [H0]; · iexact H0
  isplitl [H1]; · iexact H1
  isplitl [H2]; · iexact H2
  iexact H3

end Cert.Kernel.Frm

end
-- ==== Proof.K.Reg3.lean ====
import proofs.«417496_j30210799960814_2_alg».proof.Proof.Gen.Kernel.Launch
import proofs.«417496_j30210799960814_2_alg».proof.Proof.Gen.Kernel.Skeleton
import proofs.«417496_j30210799960814_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_out : Rect S5000x30 := Rect.unit (s := S5000x30) ![0, 0] S5000x30.size inb_S5000x30_S5000x30_0_0
abbrev r3_x : Rect S5000x16 := Rect.unit (s := S5000x16) ![0, 0] S5000x16.size inb_S5000x16_S5000x16_0_0
abbrev r3_w : Rect S16x30 := Rect.unit (s := S16x30) ![0, 0] S16x30.size inb_S16x30_S16x30_0_0

def out3_2 (x0 : Vec F S5000x16 .f32) (x1 : Vec F S16x30 .f32) : Vec F S5000x30 .f32 :=
  View.canon [⟨r3_out, k3_pay1 (View.ld x0 r3_x) (View.ld x1 r3_w)⟩]

theorem sound_kernel3 (c : Dev nD) (E : Set ℕ) (i : grid3.Coords) (arg1 : Memref sig .tc .vmem S5000x16 .f32) (harg1 : arg1.IsWhole)
    (arg2 : Memref sig .tc .vmem S16x30 .f32) (harg2 : arg2.IsWhole) (arg3 : Memref sig .tc .vmem S5000x30 .f32) (harg3 : arg3.IsWhole)
    (x0 : Vec F S5000x16 .f32) (x1 : Vec F S16x30 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x30.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp only [before3_0, before3_1]
  rw [after3_2]
  show _ ⊢ wp _ _ _ (bodyAt3 t) fun _ => iprop((dat3 V c).Φ t.castSucc ∗ (dat3 V c).owesAt () t.castSucc ∗ _)
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe
  isplitl [H0]; · iexact H0
  iexact H1

end Cert.Kernel.Frm

end
-- ==== Proof.K.Reg4.lean ====
import proofs.«417496_j30210799960814_2_alg».proof.Proof.Gen.Kernel.Launch
import proofs.«417496_j30210799960814_2_alg».proof.Proof.Gen.Kernel.Skeleton
import proofs.«417496_j30210799960814_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S4000x10 := Rect.unit (s := S4000x10) ![0, 0] S4000x10.size inb_S4000x10_S4000x10_0_0
abbrev r4_u : Rect S4000x1 := Rect.unit (s := S4000x1) ![0, 0] S4000x1.size inb_S4000x1_S4000x1_0_0

def out4_3 (x0 : Vec F S4000x10 .f32) (x1 : Vec F S4000x10 .f32) (x2 : Vec F S4000x1 .f32) : Vec F S4000x10 .f32 :=
  View.canon [⟨r4_a, k4_pay1 (View.ld x2 r4_u) (View.ld x0 r4_a) (View.ld x1 r4_a)⟩]

theorem sound_kernel4 (c : Dev nD) (E : Set ℕ) (i : grid4.Coords) (arg1 : Memref sig .tc .vmem S4000x10 .f32) (harg1 : arg1.IsWhole)
    (arg2 : Memref sig .tc .vmem S4000x10 .f32) (harg2 : arg2.IsWhole) (arg3 : Memref sig .tc .vmem S4000x1 .f32) (harg3 : arg3.IsWhole)
    (arg4 : Memref sig .tc .vmem S4000x10 .f32) (harg4 : arg4.IsWhole)
    (x0 : Vec F S4000x10 .f32) (x1 : Vec F S4000x10 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__blend_kernel i arg1 harg1 arg2 harg2 arg3 harg3 arg4 harg4) K := by
  simp only [cc4__blend_kernel_eq_skeleton]; unfold cc4__blend_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x10.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  simp only [before4_0, before4_1, before4_2]
  rw [after4_3]
  show _ ⊢ wp _ _ _ (bodyAt4 t) fun _ => iprop((dat4 V c).Φ t.castSucc ∗ (dat4 V c).owesAt () t.castSucc ∗ _)
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  iframe H0 H1 H2
  isplitl [H3]; · iexists _; iexact H3
  iintro ⟨H0, H1, H2, H3⟩
  iframe
  isplitl [H0]; · iexact H0
  isplitl [H1]; · iexact H1
  iexact H2

end Cert.Kernel.Frm

end
-- ==== Proof.K.Reg5.lean ====
import proofs.«417496_j30210799960814_2_alg».proof.Proof.Gen.Kernel.Launch
import proofs.«417496_j30210799960814_2_alg».proof.Proof.Gen.Kernel.Skeleton
import proofs.«417496_j30210799960814_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x10 := Rect.unit (s := S5000x10) ![0, 0] S5000x10.size inb_S5000x10_S5000x10_0_0
abbrev r5_d : Rect S5000x1 := Rect.unit (s := S5000x1) ![0, 0] S5000x1.size inb_S5000x1_S5000x1_0_0
abbrev r5_b : Rect S1x10 := Rect.unit (s := S1x10) ![0, 0] S1x10.size inb_S1x10_S1x10_0_0

def out5_4 (x0 : Vec F S5000x10 .f32) (x1 : Vec F S5000x1 .f32) (x2 : Vec F S5000x10 .f32) (x3 : Vec F S1x10 .f32) : Vec F S5000x10 .f32 :=
  View.canon [⟨r5_a, k5_pay1 (View.ld x1 r5_d) (View.ld x0 r5_a) (View.ld x2 r5_a) (View.ld x3 r5_b)⟩]

theorem sound_kernel5 (c : Dev nD) (E : Set ℕ) (i : grid5.Coords) (arg1 : Memref sig .tc .vmem S5000x10 .f32) (harg1 : arg1.IsWhole)
    (arg2 : Memref sig .tc .vmem S5000x1 .f32) (harg2 : arg2.IsWhole) (arg3 : Memref sig .tc .vmem S5000x10 .f32) (harg3 : arg3.IsWhole)
    (arg4 : Memref sig .tc .vmem S1x10 .f32) (harg4 : arg4.IsWhole) (arg5 : Memref sig .tc .vmem S5000x10 .f32) (harg5 : arg5.IsWhole)
    (x0 : Vec F S5000x10 .f32) (x1 : Vec F S5000x1 .f32) (x2 : Vec F S5000x10 .f32) (x3 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x10.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp only [before5_0, before5_1, before5_2, before5_3]
  rw [after5_4]
  show _ ⊢ wp _ _ _ (bodyAt5 t) fun _ => iprop((dat5 V c).Φ t.castSucc ∗ (dat5 V c).owesAt () t.castSucc ∗ _)
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  iframe H0 H1 H2 H3
  isplitl [H4]; · iexists _; iexact H4
  iintro ⟨H0, H1, H2, H3, H4⟩
  iframe
  isplitl [H0]; · iexact H0
  isplitl [H1]; · iexact H1
  isplitl [H2]; · iexact H2
  iexact H3

end Cert.Kernel.Frm

end
-- ==== Proof.K.Segs.lean ====
import proofs.«417496_j30210799960814_2_alg».proof.Proof.K.Reg0
import proofs.«417496_j30210799960814_2_alg».proof.Proof.K.Reg1
import proofs.«417496_j30210799960814_2_alg».proof.Proof.K.Reg2
import proofs.«417496_j30210799960814_2_alg».proof.Proof.K.Reg3
import proofs.«417496_j30210799960814_2_alg».proof.Proof.K.Reg4
import proofs.«417496_j30210799960814_2_alg».proof.Proof.K.Reg5
import proofs.«417496_j30210799960814_2_alg».proof.Proof.Gen.Kernel.Regions

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Y0 (c : Dev nD) : Valuation τ sig (Elt F) := fun b => m (c, b)
abbrev Y1 (c : Dev nD) : Valuation τ sig (Elt F) := StableHlo.after hostOps0 (Y0 m c)
abbrev T1 : (c : Dev nD) → (b : Ref sig .tc) → Buf (Elt F) ((c : Thread nD τ).loc b) := fun c b => Y1 m c b
def b2 (c : Dev nD) : Buf (Elt F) ((c : Thread nD τ).loc main_v9) := (dat0 (T1 m) c).arrAt 2 cfg0.N
abbrev Y2 (c : Dev nD) : Valuation τ sig (Elt F) := Function.update (Y1 m c) main_v9 (b2 m c)
abbrev Y3 (c : Dev nD) : Valuation τ sig (Elt F) := StableHlo.after hostOps1 (Y2 m c)
abbrev Y4 (c : Dev nD) : Valuation τ sig (Elt F) := StableHlo.after hostOps1_1 (Y3 m c)
abbrev Y5 (c : Dev nD) : Valuation τ sig (Elt F) := StableHlo.after hostOps1_2 (Y4 m c)
abbrev T5 : (c : Dev nD) → (b : Ref sig .tc) → Buf (Elt F) ((c : Thread nD τ).loc b) := fun c b => Y5 m c b
def b6 (c : Dev nD) : Buf (Elt F) ((c : Thread nD τ).loc main_v15) := (dat1 (T5 m) c).arrAt 3 cfg1.N
abbrev Y6 (c : Dev nD) : Valuation τ sig (Elt F) := Function.update (Y5 m c) main_v15 (b6 m c)
abbrev Y7 (c : Dev nD) : Valuation τ sig (Elt F) := StableHlo.after hostOps2 (Y6 m c)
abbrev T7 : (c : Dev nD) → (b : Ref sig .tc) → Buf (Elt F) ((c : Thread nD τ).loc b) := fun c b => Y7 m c b
def b8 (c : Dev nD) : Buf (Elt F) ((c : Thread nD τ).loc main_v25) := (dat2 (T7 m) c).arrAt 4 cfg2.N
abbrev Y8 (c : Dev nD) : Valuation τ sig (Elt F) := Function.update (Y7 m c) main_v25 (b8 m c)
abbrev Y9 (c : Dev nD) : Valuation τ sig (Elt F) := StableHlo.after hostOps3 (Y8 m c)
abbrev T9 : (c : Dev nD) → (b : Ref sig .tc) → Buf (Elt F) ((c : Thread nD τ).loc b) := fun c b => Y9 m c b
def b10 (c : Dev nD) : Buf (Elt F) ((c : Thread nD τ).loc main_v31) := (dat3 (T9 m) c).arrAt 2 cfg3.N
abbrev Y10 (c : Dev nD) : Valuation τ sig (Elt F) := Function.update (Y9 m c) main_v31 (b10 m c)
abbrev Y11 (c : Dev nD) : Valuation τ sig (Elt F) := StableHlo.after hostOps4 (Y10 m c)
abbrev Y12 (c : Dev nD) : Valuation τ sig (Elt F) := StableHlo.after hostOps4_1 (Y11 m c)
abbrev Y13 (c : Dev nD) : Valuation τ sig (Elt F) := StableHlo.after hostOps4_2 (Y12 m c)
abbrev T13 : (c : Dev nD) → (b : Ref sig .tc) → Buf (Elt F) ((c : Thread nD τ).loc b) := fun c b => Y13 m c b
def b14 (c : Dev nD) : Buf (Elt F) ((c : Thread nD τ).loc main_v37) := (dat4 (T13 m) c).arrAt 3 cfg4.N
abbrev Y14 (c : Dev nD) : Valuation τ sig (Elt F) := Function.update (Y13 m c) main_v37 (b14 m c)
abbrev Y15 (c : Dev nD) : Valuation τ sig (Elt F) := StableHlo.after hostOps5 (Y14 m c)
abbrev T15 : (c : Dev nD) → (b : Ref sig .tc) → Buf (Elt F) ((c : Thread nD τ).loc b) := fun c b => Y15 m c b
def b16 (c : Dev nD) : Buf (Elt F) ((c : Thread nD τ).loc main_v47) := (dat5 (T15 m) c).arrAt 4 cfg5.N
abbrev Y16 (c : Dev nD) : Valuation τ sig (Elt F) := Function.update (Y15 m c) main_v47 (b16 m c)

theorem Y1_of (c : Dev nD) (r : Ref sig .tc) (h : r ∉ hostOps0_W) : Y1 m c r = Y0 m c r :=
  StableHlo.after_of_writes_sub hostOps0 _ hostOps0_writes h
theorem Y2_of (c : Dev nD) (r : Ref sig .tc) (h : r ≠ main_v9) : Y2 m c r = Y1 m c r :=
  Function.update_of_ne (StableHlo.devRef_ne_of_ne h) ..
theorem Y3_of (c : Dev nD) (r : Ref sig .tc) (h : r ∉ hostOps1_W) : Y3 m c r = Y2 m c r :=
  StableHlo.after_of_writes_sub hostOps1 _ hostOps1_writes h
theorem Y4_of (c : Dev nD) (r : Ref sig .tc) (h : r ∉ hostOps1_1_W) : Y4 m c r = Y3 m c r :=
  StableHlo.after_of_writes_sub hostOps1_1 _ hostOps1_1_writes h
theorem Y5_of (c : Dev nD) (r : Ref sig .tc) (h : r ∉ hostOps1_2_W) : Y5 m c r = Y4 m c r :=
  StableHlo.after_of_writes_sub hostOps1_2 _ hostOps1_2_writes h
theorem Y6_of (c : Dev nD) (r : Ref sig .tc) (h : r ≠ main_v15) : Y6 m c r = Y5 m c r :=
  Function.update_of_ne (StableHlo.devRef_ne_of_ne h) ..
theorem Y7_of (c : Dev nD) (r : Ref sig .tc) (h : r ∉ hostOps2_W) : Y7 m c r = Y6 m c r :=
  StableHlo.after_of_writes_sub hostOps2 _ hostOps2_writes h
theorem Y8_of (c : Dev nD) (r : Ref sig .tc) (h : r ≠ main_v25) : Y8 m c r = Y7 m c r :=
  Function.update_of_ne (StableHlo.devRef_ne_of_ne h) ..
theorem Y9_of (c : Dev nD) (r : Ref sig .tc) (h : r ∉ hostOps3_W) : Y9 m c r = Y8 m c r :=
  StableHlo.after_of_writes_sub hostOps3 _ hostOps3_writes h
theorem Y10_of (c : Dev nD) (r : Ref sig .tc) (h : r ≠ main_v31) : Y10 m c r = Y9 m c r :=
  Function.update_of_ne (StableHlo.devRef_ne_of_ne h) ..
theorem Y11_of (c : Dev nD) (r : Ref sig .tc) (h : r ∉ hostOps4_W) : Y11 m c r = Y10 m c r :=
  StableHlo.after_of_writes_sub hostOps4 _ hostOps4_writes h
theorem Y12_of (c : Dev nD) (r : Ref sig .tc) (h : r ∉ hostOps4_1_W) : Y12 m c r = Y11 m c r :=
  StableHlo.after_of_writes_sub hostOps4_1 _ hostOps4_1_writes h
theorem Y13_of (c : Dev nD) (r : Ref sig .tc) (h : r ∉ hostOps4_2_W) : Y13 m c r = Y12 m c r :=
  StableHlo.after_of_writes_sub hostOps4_2 _ hostOps4_2_writes h
theorem Y14_of (c : Dev nD) (r : Ref sig .tc) (h : r ≠ main_v37) : Y14 m c r = Y13 m c r :=
  Function.update_of_ne (StableHlo.devRef_ne_of_ne h) ..
theorem Y15_of (c : Dev nD) (r : Ref sig .tc) (h : r ∉ hostOps5_W) : Y15 m c r = Y14 m c r :=
  StableHlo.after_of_writes_sub hostOps5 _ hostOps5_writes h

theorem Y2_out (c : Dev nD) : Y2 m c main_v9 = b2 m c := Function.update_self ..
theorem Y6_out (c : Dev nD) : Y6 m c main_v15 = b6 m c := Function.update_self ..
theorem Y8_out (c : Dev nD) : Y8 m c main_v25 = b8 m c := Function.update_self ..
theorem Y10_out (c : Dev nD) : Y10 m c main_v31 = b10 m c := Function.update_self ..
theorem Y14_out (c : Dev nD) : Y14 m c main_v37 = b14 m c := Function.update_self ..
theorem Y16_out (c : Dev nD) : Y16 m c main_v47 = b16 m c := Function.update_self ..

/-- What each region leaves, read off the contents right after it. -/
def outsF : Outs (F := F) := fun k r c => match k with
  | 2 => Y2 m c r | 6 => Y6 m c r | 8 => Y8 m c r | 10 => Y10 m c r | 14 => Y14 m c r | _ => Y16 m c r

theorem V2_eq (c : Dev nD) : V2 m (outsF m) c = Y2 m c := congrArg (Function.update (Y1 m c) main_v9) (Y2_out m c)
theorem V5_eq (c : Dev nD) : V5 m (outsF m) c = Y5 m c := by rw [V5, V4, V3, V2_eq]
theorem V6_eq (c : Dev nD) : V6 m (outsF m) c = Y6 m c := by
  rw [V6, V5_eq]; exact congrArg (Function.update (Y5 m c) main_v15) (Y6_out m c)
theorem V7_eq (c : Dev nD) : V7 m (outsF m) c = Y7 m c := by rw [V7, V6_eq]
theorem V8_eq (c : Dev nD) : V8 m (outsF m) c = Y8 m c := by
  rw [V8, V7_eq]; exact congrArg (Function.update (Y7 m c) main_v25) (Y8_out m c)
theorem V9_eq (c : Dev nD) : V9 m (outsF m) c = Y9 m c := by rw [V9, V8_eq]
theorem V10_eq (c : Dev nD) : V10 m (outsF m) c = Y10 m c := by
  rw [V10, V9_eq]; exact congrArg (Function.update (Y9 m c) main_v31) (Y10_out m c)
theorem V13_eq (c : Dev nD) : V13 m (outsF m) c = Y13 m c := by rw [V13, V12, V11, V10_eq]
theorem V14_eq (c : Dev nD) : V14 m (outsF m) c = Y14 m c := by
  rw [V14, V13_eq]; exact congrArg (Function.update (Y13 m c) main_v37) (Y14_out m c)
theorem V15_eq (c : Dev nD) : V15 m (outsF m) c = Y15 m c := by rw [V15, V14_eq]
theorem V16_eq (c : Dev nD) : V16 m (outsF m) c = Y16 m c := by
  rw [V16, V15_eq]; exact congrArg (Function.update (Y15 m c) main_v47) (Y16_out m c)

def pdats : (p : Fin 6) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T5 m) c
  | ⟨2, _⟩ => fun c => dat2 (T7 m) c
  | ⟨3, _⟩ => fun c => dat3 (T9 m) c
  | ⟨4, _⟩ => fun c => dat4 (T13 m) c
  | ⟨5, _⟩ => fun c => dat5 (T15 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- Equal contents are held alike. -/
theorem held_eq {V Y : Valuation τ sig (Elt F)} {c : Dev nD} (h : V = Y) :
    iprop(StableHlo.held (c : Thread nD τ) (Pipeline.ucRefs τ sig) V ∗ R c) ⊢ iprop(StableHlo.held (c : Thread nD τ) (Pipeline.ucRefs τ sig) Y ∗ R c) := h ▸ .rfl

/-- The contents after region `p`: its output array `o` at its final value, every other buffer as at entry. -/
abbrev Yout (p : Fin 6) (Yi : Dev nD → Valuation τ sig (Elt F)) (o : Fin (cfgs p).W) (c : Dev nD) : Valuation τ sig (Elt F) :=
  Function.update (Yi c) (Pipeline.arrRef (Pipeline.pin (pcfgs (F := F)) adm p).spec o) ((pdats m p c).arrAt o (Pipeline.pin (pcfgs (F := F)) adm p).N)

set_option backward.isDefEq.respectTransparency.types false in
/-- Region `p` as a segment from the contents `Yi` to `Yout`, given that its input arrays are read off `Yi` and `o` is its only output. -/
def mkReg (p : Fin 6) (lf : Pipeline.LaunchFacts (nD := nD) (τ := τ) cfgs p)
    (Yi : Dev nD → Valuation τ sig (Elt F)) (o : Fin (cfgs p).W)
    (hbody : ∀ c, BodyObligation (pdats m p c) (defs₀ (F := F)) Variants.none () Set.univ)
    (hin : ∀ w, w ≠ o → ((cfgs p).win w).isOut = false := by decide)
    (hA : ∀ c w, (pdats m p c).A w = Yi c (Pipeline.arrRef (cfgs p).spec w) := by intros; rfl)
    (hΦ : ∀ c t, (pdats m p c).Φ t = Pipeline.ΦA (cfgs p).spec c := by intros; rfl)
    (hq : ∀ c w, (pdats m p c).q w = fullShare := by intros; rfl)
    (howed : ∀ c t, (pdats m p c).owed t = 0 := by intros; rfl)
    (hrec : ∀ c, (pdats m p c).recorded 0 = Set.univ := by intros; rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Yi c) ∗ R c)
  post c := iprop(StableHlo.held (c : Thread nD τ) (Pipeline.ucRefs τ sig) (Yout m p Yi o c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Yi c b)
  hentry c := by
    rw [Pipeline.ownSems0_none]
    have hsplit := Pipeline.arrays_of_unscopedBufs (p := p) (pcfgs (F := F)) adm (pdats m) lf.win lf.arr_whole c
      ((pdats m p c).share_full (hq c)) (fun b => Yi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun _ _ => Or.inl (hrec c ▸ trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Yi c b) (fun b => Yout m p Yi o c b) ((pdats m p c).arrAt · (cfgs p).N)
      (fun w => by
        by_cases h : w = o
        · subst h; exact Eq.symm (Function.update_self ..)
        · exact ((pdats m p c).arrAt_in w (hin w h) _).trans ((hA c w).trans (Function.update_of_ne (StableHlo.devRef_ne_of_ne fun e => h (lf.win.arr_inj e)) ..).symm))
      (fun b hb => Function.update_of_ne (StableHlo.devRef_ne_of_ne fun e => hb (Finset.mem_image.mpr ⟨o, Finset.mem_univ _, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

set_option backward.isDefEq.respectTransparency.types false in
def reg0 := mkReg m 0 launch0 (Y1 m) 2 (body_obligation0 (T1 m))
set_option backward.isDefEq.respectTransparency.types false in
def reg1 := mkReg m 1 launch1 (Y5 m) 3 (body_obligation1 (T5 m))
set_option backward.isDefEq.respectTransparency.types false in
def reg2 := mkReg m 2 launch2 (Y7 m) 4 (body_obligation2 (T7 m))
set_option backward.isDefEq.respectTransparency.types false in
def reg3 := mkReg m 3 launch3 (Y9 m) 2 (body_obligation3 (T9 m))
set_option backward.isDefEq.respectTransparency.types false in
def reg4 := mkReg m 4 launch4 (Y13 m) 3 (body_obligation4 (T13 m))
set_option backward.isDefEq.respectTransparency.types false in
def reg5 := mkReg m 5 launch5 (Y15 m) 4 (body_obligation5 (T15 m))

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m (emb₁ : Emb (URounds (GSem nD τ sig) Unit) 𝕄) () 𝒱₀ L lv (fun _ _ => rfl) ρ (outsF m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE6 := fun c => by iintro ⟨-, H⟩; iexact H)
    (reg0 m) (fun c => .rfl) (fun c => held_eq (V2_eq m c).symm)
    (reg1 m) (fun c => held_eq (V5_eq m c)) (fun c => held_eq (V6_eq m c).symm)
    (reg2 m) (fun c => held_eq (V7_eq m c)) (fun c => held_eq (V8_eq m c).symm)
    (reg3 m) (fun c => held_eq (V9_eq m c)) (fun c => held_eq (V10_eq m c).symm)
    (reg4 m) (fun c => held_eq (V13_eq m c)) (fun c => held_eq (V14_eq m c).symm)
    (reg5 m) (fun c => held_eq (V15_eq m c)) (fun c => held_eq (V16_eq m c).symm)

end Cert.Kernel.Frm

end
-- ==== Proof.KI.Reg0.lean ====
import proofs.«417496_j30210799960814_2_alg».proof.Proof.Gen.KernelIdeal.Launch
import proofs.«417496_j30210799960814_2_alg».proof.Proof.Gen.KernelIdeal.Skeleton
import proofs.«417496_j30210799960814_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_out : Rect S5000x48 := Rect.unit (s := S5000x48) ![0, 0] S5000x48.size inb_S5000x48_S5000x48_0_0
abbrev r0_x : Rect S5000x128 := Rect.unit (s := S5000x128) ![0, 0] S5000x128.size inb_S5000x128_S5000x128_0_0
abbrev r0_w : Rect S128x48 := Rect.unit (s := S128x48) ![0, 0] S128x48.size inb_S128x48_S128x48_0_0

def out0_2 (x0 : Vec F S5000x128 .f32) (x1 : Vec F S128x48 .f32) : Vec F S5000x48 .f32 :=
  View.canon [⟨r0_out, k0_pay1 (View.ld x0 r0_x) (View.ld x1 r0_w)⟩]

theorem sound_kernel0 (c : Dev nD) (E : Set ℕ) (i : grid0.Coords) (arg1 : Memref sig .tc .vmem S5000x128 .f32) (harg1 : arg1.IsWhole)
    (arg2 : Memref sig .tc .vmem S128x48 .f32) (harg2 : arg2.IsWhole) (arg3 : Memref sig .tc .vmem S5000x48 .f32) (harg3 : arg3.IsWhole)
    (x0 : Vec F S5000x128 .f32) (x1 : Vec F S128x48 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x48.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1]
  rw [after0_2]
  show _ ⊢ wp _ _ _ (bodyAt0 t) fun _ => iprop((dat0 V c).Φ t.castSucc ∗ (dat0 V c).owesAt () t.castSucc ∗ _)
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe
  isplitl [H0]; · iexact H0
  iexact H1

end Cert.KernelIdeal.Frm

end
-- ==== Proof.KI.Reg1.lean ====
import proofs.«417496_j30210799960814_2_alg».proof.Proof.Gen.KernelIdeal.Launch
import proofs.«417496_j30210799960814_2_alg».proof.Proof.Gen.KernelIdeal.Skeleton
import proofs.«417496_j30210799960814_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S4000x16 := Rect.unit (s := S4000x16) ![0, 0] S4000x16.size inb_S4000x16_S4000x16_0_0
abbrev r1_u : Rect S4000x1 := Rect.unit (s := S4000x1) ![0, 0] S4000x1.size inb_S4000x1_S4000x1_0_0

def out1_3 (x0 : Vec F S4000x16 .f32) (x1 : Vec F S4000x16 .f32) (x2 : Vec F S4000x1 .f32) : Vec F S4000x16 .f32 :=
  View.canon [⟨r1_a, k1_pay1 (View.ld x2 r1_u) (View.ld x0 r1_a) (View.ld x1 r1_a)⟩]

theorem sound_kernel1 (c : Dev nD) (E : Set ℕ) (i : grid1.Coords) (arg1 : Memref sig .tc .vmem S4000x16 .f32) (harg1 : arg1.IsWhole)
    (arg2 : Memref sig .tc .vmem S4000x16 .f32) (harg2 : arg2.IsWhole) (arg3 : Memref sig .tc .vmem S4000x1 .f32) (harg3 : arg3.IsWhole)
    (arg4 : Memref sig .tc .vmem S4000x16 .f32) (harg4 : arg4.IsWhole)
    (x0 : Vec F S4000x16 .f32) (x1 : Vec F S4000x16 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__blend_kernel i arg1 harg1 arg2 harg2 arg3 harg3 arg4 harg4) K := by
  simp only [cc1__blend_kernel_eq_skeleton]; unfold cc1__blend_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x16.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2]
  rw [after1_3]
  show _ ⊢ wp _ _ _ (bodyAt1 t) fun _ => iprop((dat1 V c).Φ t.castSucc ∗ (dat1 V c).owesAt () t.castSucc ∗ _)
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe
  isplitl [H0]; · iexact H0
  isplitl [H1]; · iexact H1
  iexact H2

end Cert.KernelIdeal.Frm

end
-- ==== Proof.KI.Reg2.lean ====
import proofs.«417496_j30210799960814_2_alg».proof.Proof.Gen.KernelIdeal.Launch
import proofs.«417496_j30210799960814_2_alg».proof.Proof.Gen.KernelIdeal.Skeleton
import proofs.«417496_j30210799960814_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x16 := Rect.unit (s := S5000x16) ![0, 0] S5000x16.size inb_S5000x16_S5000x16_0_0
abbrev r2_d : Rect S5000x1 := Rect.unit (s := S5000x1) ![0, 0] S5000x1.size inb_S5000x1_S5000x1_0_0
abbrev r2_b : Rect S1x16 := Rect.unit (s := S1x16) ![0, 0] S1x16.size inb_S1x16_S1x16_0_0

def out2_4 (x0 : Vec F S5000x16 .f32) (x1 : Vec F S5000x1 .f32) (x2 : Vec F S5000x16 .f32) (x3 : Vec F S1x16 .f32) : Vec F S5000x16 .f32 :=
  View.canon [⟨r2_a, k2_pay1 (View.ld x1 r2_d) (View.ld x0 r2_a) (View.ld x2 r2_a) (View.ld x3 r2_b)⟩]

theorem sound_kernel2 (c : Dev nD) (E : Set ℕ) (i : grid2.Coords) (arg1 : Memref sig .tc .vmem S5000x16 .f32) (harg1 : arg1.IsWhole)
    (arg2 : Memref sig .tc .vmem S5000x1 .f32) (harg2 : arg2.IsWhole) (arg3 : Memref sig .tc .vmem S5000x16 .f32) (harg3 : arg3.IsWhole)
    (arg4 : Memref sig .tc .vmem S1x16 .f32) (harg4 : arg4.IsWhole) (arg5 : Memref sig .tc .vmem S5000x16 .f32) (harg5 : arg5.IsWhole)
    (x0 : Vec F S5000x16 .f32) (x1 : Vec F S5000x1 .f32) (x2 : Vec F S5000x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__combine_kernel i arg1 harg1 arg2 harg2 arg3 harg3 arg4 harg4 arg5 harg5) K := by
  simp only [cc2__combine_kernel_eq_skeleton]; unfold cc2__combine_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x16.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

theorem body_obligation2 (c : Dev nD) : BodyObligation (dat2 (F := F) V c) (defs₀ (F := F)) Variants.none () Set.univ := fun t => by
  rw [bigSep_W2, bigSep_W2]
  simp only [before2_0, before2_1, before2_2, before2_3]
  rw [after2_4]
  show _ ⊢ wp _ _ _ (bodyAt2 t) fun _ => iprop((dat2 V c).Φ t.castSucc ∗ (dat2 V c).owesAt () t.castSucc ∗ _)
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  iframe H0 H1 H2 H3
  isplitl [H4]; · iexists _; iexact H4
  iintro ⟨H0, H1, H2, H3, H4⟩
  iframe
  isplitl [H0]; · iexact H0
  isplitl [H1]; · iexact H1
  isplitl [H2]; · iexact H2
  iexact H3

end Cert.KernelIdeal.Frm

end
-- ==== Proof.KI.Reg3.lean ====
import proofs.«417496_j30210799960814_2_alg».proof.Proof.Gen.KernelIdeal.Launch
import proofs.«417496_j30210799960814_2_alg».proof.Proof.Gen.KernelIdeal.Skeleton
import proofs.«417496_j30210799960814_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_out : Rect S5000x30 := Rect.unit (s := S5000x30) ![0, 0] S5000x30.size inb_S5000x30_S5000x30_0_0
abbrev r3_x : Rect S5000x16 := Rect.unit (s := S5000x16) ![0, 0] S5000x16.size inb_S5000x16_S5000x16_0_0
abbrev r3_w : Rect S16x30 := Rect.unit (s := S16x30) ![0, 0] S16x30.size inb_S16x30_S16x30_0_0

def out3_2 (x0 : Vec F S5000x16 .f32) (x1 : Vec F S16x30 .f32) : Vec F S5000x30 .f32 :=
  View.canon [⟨r3_out, k3_pay1 (View.ld x0 r3_x) (View.ld x1 r3_w)⟩]

theorem sound_kernel3 (c : Dev nD) (E : Set ℕ) (i : grid3.Coords) (arg1 : Memref sig .tc .vmem S5000x16 .f32) (harg1 : arg1.IsWhole)
    (arg2 : Memref sig .tc .vmem S16x30 .f32) (harg2 : arg2.IsWhole) (arg3 : Memref sig .tc .vmem S5000x30 .f32) (harg3 : arg3.IsWhole)
    (x0 : Vec F S5000x16 .f32) (x1 : Vec F S16x30 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__linear_kernel i arg1 harg1 arg2 harg2 arg3 harg3) K := by
  simp only [cc3__linear_kernel_eq_skeleton]; unfold cc3__linear_kernel_skel owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S5000x30.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

theorem body_obligation3 (c : Dev nD) : BodyObligation (dat3 (F := F) V c) (defs₀ (F := F)) Variants.none () Set.univ := fun t => by
  rw [bigSep_W3, bigSep_W3]
  simp only [before3_0, before3_1]
  rw [after3_2]
  show _ ⊢ wp _ _ _ (bodyAt3 t) fun _ => iprop((dat3 V c).Φ t.castSucc ∗ (dat3 V c).owesAt () t.castSucc ∗ _)
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  iframe H0 H1
  isplitl [H2]; · iexists _; iexact H2
  iintro ⟨H0, H1, H2⟩
  iframe
  isplitl [H0]; · iexact H0
  iexact H1

end Cert.KernelIdeal.Frm

end
-- ==== Proof.KI.Reg4.lean ====
import proofs.«417496_j30210799960814_2_alg».proof.Proof.Gen.KernelIdeal.Launch
import proofs.«417496_j30210799960814_2_alg».proof.Proof.Gen.KernelIdeal.Skeleton
import proofs.«417496_j30210799960814_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S4000x10 := Rect.unit (s := S4000x10) ![0, 0] S4000x10.size inb_S4000x10_S4000x10_0_0
abbrev r4_u : Rect S4000x1 := Rect.unit (s := S4000x1) ![0, 0] S4000x1.size inb_S4000x1_S4000x1_0_0

def out4_3 (x0 : Vec F S4000x10 .f32) (x1 : Vec F S4000x10 .f32) (x2 : Vec F S4000x1 .f32) : Vec F S4000x10 .f32 :=
  View.canon [⟨r4_a, k4_pay1 (View.ld x2 r4_u) (View.ld x0 r4_a) (View.ld x1 r4_a)⟩]

theorem sound_kernel4 (c : Dev nD) (E : Set ℕ) (i : grid4.Coords) (arg1 : Memref sig .tc .vmem S4000x10 .f32) (harg1 : arg1.IsWhole)
    (arg2 : Memref sig .tc .vmem S4000x10 .f32) (harg2 : arg2.IsWhole) (arg3 : Memref sig .tc .vmem S4000x1 .f32) (harg3 : arg3.IsWhole)
    (arg4 : Memref sig .tc .vmem S4000x10 .f32) (harg4 : arg4.IsWhole)
    (x0 : Vec F S4000x10 .f32) (x1 : Vec F S4000x10 .f32) (x2 : Vec F S4000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__blend_kernel i arg1 harg1 arg2 harg2 arg3 harg3 arg4 harg4) K := by
  simp only [cc4__blend_kernel_eq_skeleton]; unfold cc4__blend_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S4000x10.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

theorem body_obligation4 (c : Dev nD) : BodyObligation (dat4 (F := F) V c) (defs₀ (F := F)) Variants.none () Set.univ := fun t => by
  rw [bigSep_W4, bigSep_W4]
  simp only [before4_0, before4_1, before4_2]
  rw [after4_3]
  show _ ⊢ wp _ _ _ (bodyAt4 t) fun _ => iprop((dat4 V c).Φ t.castSucc ∗ (dat4 V c).owesAt () t.castSucc ∗ _)
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  iframe H0 H1 H2
  isplitl [H3]; · iexists _; iexact H3
  iintro ⟨H0, H1, H2, H3⟩
  iframe
  isplitl [H0]; · iexact H0
  isplitl [H1]; · iexact H1
  iexact H2

end Cert.KernelIdeal.Frm

end
-- ==== Proof.KI.Reg5.lean ====
import proofs.«417496_j30210799960814_2_alg».proof.Proof.Gen.KernelIdeal.Launch
import proofs.«417496_j30210799960814_2_alg».proof.Proof.Gen.KernelIdeal.Skeleton
import proofs.«417496_j30210799960814_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_a : Rect S5000x10 := Rect.unit (s := S5000x10) ![0, 0] S5000x10.size inb_S5000x10_S5000x10_0_0
abbrev r5_d : Rect S5000x1 := Rect.unit (s := S5000x1) ![0, 0] S5000x1.size inb_S5000x1_S5000x1_0_0
abbrev r5_b : Rect S1x10 := Rect.unit (s := S1x10) ![0, 0] S1x10.size inb_S1x10_S1x10_0_0

def out5_4 (x0 : Vec F S5000x10 .f32) (x1 : Vec F S5000x1 .f32) (x2 : Vec F S5000x10 .f32) (x3 : Vec F S1x10 .f32) : Vec F S5000x10 .f32 :=
  View.canon [⟨r5_a, k5_pay1 (View.ld x1 r5_d) (View.ld x0 r5_a) (View.ld x2 r5_a) (View.ld x3 r5_b)⟩]

theorem sound_kernel5 (c : Dev nD) (E : Set ℕ) (i : grid5.Coords) (arg1 : Memref sig .tc .vmem S5000x10 .f32) (harg1 : arg1.IsWhole)
    (arg2 : Memref sig .tc .vmem S5000x1 .f32) (harg2 : arg2.IsWhole) (arg3 : Memref sig .tc .vmem S5000x10 .f32) (harg3 : arg3.IsWhole)
    (arg4 : Memref sig .tc .vmem S1x10 .f32) (harg4 : arg4.IsWhole) (arg5 : Memref sig .tc .vmem S5000x10 .f32) (harg5 : arg5.IsWhole)
    (x0 : Vec F S5000x10 .f32) (x1 : Vec F S5000x1 .f32) (x2 : Vec F S5000x10 .f32) (x3 : Vec F S1x10 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_kernel i arg1 harg1 arg2 harg2 arg3 harg3 arg4 harg4 arg5 harg5) K := by
  simp only [cc5__combine_kernel_eq_skeleton]; unfold cc5__combine_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x10.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d
theorem before5_2 (c : Dev nD) (t : Fin cfg5.N) (d) : (dat5 V c).before 2 t d = iblk5 V c 2 t :=
  (dat5 V c).before_in_eq_fetched 2 rfl (fun _ => rfl) (fun _ _ _ => rfl) (fun _ => rfl) t d
theorem before5_3 (c : Dev nD) (t : Fin cfg5.N) (d) : (dat5 V c).before 3 t d = iblk5 V c 3 t :=
  (dat5 V c).before_in_eq_fetched 3 rfl (fun _ => rfl) (fun _ _ _ => rfl) (fun _ => rfl) t d

theorem body_obligation5 (c : Dev nD) : BodyObligation (dat5 (F := F) V c) (defs₀ (F := F)) Variants.none () Set.univ := fun t => by
  rw [bigSep_W5, bigSep_W5]
  simp only [before5_0, before5_1, before5_2, before5_3]
  rw [after5_4]
  show _ ⊢ wp _ _ _ (bodyAt5 t) fun _ => iprop((dat5 V c).Φ t.castSucc ∗ (dat5 V c).owesAt () t.castSucc ∗ _)
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  iframe H0 H1 H2 H3
  isplitl [H4]; · iexists _; iexact H4
  iintro ⟨H0, H1, H2, H3, H4⟩
  iframe
  isplitl [H0]; · iexact H0
  isplitl [H1]; · iexact H1
  isplitl [H2]; · iexact H2
  iexact H3

end Cert.KernelIdeal.Frm

end
-- ==== Proof.KI.Segs.lean ====
import proofs.«417496_j30210799960814_2_alg».proof.Proof.KI.Reg0
import proofs.«417496_j30210799960814_2_alg».proof.Proof.KI.Reg1
import proofs.«417496_j30210799960814_2_alg».proof.Proof.KI.Reg2
import proofs.«417496_j30210799960814_2_alg».proof.Proof.KI.Reg3
import proofs.«417496_j30210799960814_2_alg».proof.Proof.KI.Reg4
import proofs.«417496_j30210799960814_2_alg».proof.Proof.KI.Reg5
import proofs.«417496_j30210799960814_2_alg».proof.Proof.Gen.KernelIdeal.Regions

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Y0 (c : Dev nD) : Valuation τ sig (Elt F) := fun b => m (c, b)
abbrev Y1 (c : Dev nD) : Valuation τ sig (Elt F) := StableHlo.after hostOps0 (Y0 m c)
abbrev T1 : (c : Dev nD) → (b : Ref sig .tc) → Buf (Elt F) ((c : Thread nD τ).loc b) := fun c b => Y1 m c b
def b2 (c : Dev nD) : Buf (Elt F) ((c : Thread nD τ).loc main_v9) := (dat0 (T1 m) c).arrAt 2 cfg0.N
abbrev Y2 (c : Dev nD) : Valuation τ sig (Elt F) := Function.update (Y1 m c) main_v9 (b2 m c)
abbrev Y3 (c : Dev nD) : Valuation τ sig (Elt F) := StableHlo.after hostOps1 (Y2 m c)
abbrev Y4 (c : Dev nD) : Valuation τ sig (Elt F) := StableHlo.after hostOps1_1 (Y3 m c)
abbrev Y5 (c : Dev nD) : Valuation τ sig (Elt F) := StableHlo.after hostOps1_2 (Y4 m c)
abbrev T5 : (c : Dev nD) → (b : Ref sig .tc) → Buf (Elt F) ((c : Thread nD τ).loc b) := fun c b => Y5 m c b
def b6 (c : Dev nD) : Buf (Elt F) ((c : Thread nD τ).loc main_v15) := (dat1 (T5 m) c).arrAt 3 cfg1.N
abbrev Y6 (c : Dev nD) : Valuation τ sig (Elt F) := Function.update (Y5 m c) main_v15 (b6 m c)
abbrev Y7 (c : Dev nD) : Valuation τ sig (Elt F) := StableHlo.after hostOps2 (Y6 m c)
abbrev T7 : (c : Dev nD) → (b : Ref sig .tc) → Buf (Elt F) ((c : Thread nD τ).loc b) := fun c b => Y7 m c b
def b8 (c : Dev nD) : Buf (Elt F) ((c : Thread nD τ).loc main_v25) := (dat2 (T7 m) c).arrAt 4 cfg2.N
abbrev Y8 (c : Dev nD) : Valuation τ sig (Elt F) := Function.update (Y7 m c) main_v25 (b8 m c)
abbrev Y9 (c : Dev nD) : Valuation τ sig (Elt F) := StableHlo.after hostOps3 (Y8 m c)
abbrev T9 : (c : Dev nD) → (b : Ref sig .tc) → Buf (Elt F) ((c : Thread nD τ).loc b) := fun c b => Y9 m c b
def b10 (c : Dev nD) : Buf (Elt F) ((c : Thread nD τ).loc main_v31) := (dat3 (T9 m) c).arrAt 2 cfg3.N
abbrev Y10 (c : Dev nD) : Valuation τ sig (Elt F) := Function.update (Y9 m c) main_v31 (b10 m c)
abbrev Y11 (c : Dev nD) : Valuation τ sig (Elt F) := StableHlo.after hostOps4 (Y10 m c)
abbrev Y12 (c : Dev nD) : Valuation τ sig (Elt F) := StableHlo.after hostOps4_1 (Y11 m c)
abbrev Y13 (c : Dev nD) : Valuation τ sig (Elt F) := StableHlo.after hostOps4_2 (Y12 m c)
abbrev T13 : (c : Dev nD) → (b : Ref sig .tc) → Buf (Elt F) ((c : Thread nD τ).loc b) := fun c b => Y13 m c b
def b14 (c : Dev nD) : Buf (Elt F) ((c : Thread nD τ).loc main_v37) := (dat4 (T13 m) c).arrAt 3 cfg4.N
abbrev Y14 (c : Dev nD) : Valuation τ sig (Elt F) := Function.update (Y13 m c) main_v37 (b14 m c)
abbrev Y15 (c : Dev nD) : Valuation τ sig (Elt F) := StableHlo.after hostOps5 (Y14 m c)
abbrev T15 : (c : Dev nD) → (b : Ref sig .tc) → Buf (Elt F) ((c : Thread nD τ).loc b) := fun c b => Y15 m c b
def b16 (c : Dev nD) : Buf (Elt F) ((c : Thread nD τ).loc main_v47) := (dat5 (T15 m) c).arrAt 4 cfg5.N
abbrev Y16 (c : Dev nD) : Valuation τ sig (Elt F) := Function.update (Y15 m c) main_v47 (b16 m c)

theorem Y1_of (c : Dev nD) (r : Ref sig .tc) (h : r ∉ hostOps0_W) : Y1 m c r = Y0 m c r :=
  StableHlo.after_of_writes_sub hostOps0 _ hostOps0_writes h
theorem Y2_of (c : Dev nD) (r : Ref sig .tc) (h : r ≠ main_v9) : Y2 m c r = Y1 m c r :=
  Function.update_of_ne (StableHlo.devRef_ne_of_ne h) ..
theorem Y3_of (c : Dev nD) (r : Ref sig .tc) (h : r ∉ hostOps1_W) : Y3 m c r = Y2 m c r :=
  StableHlo.after_of_writes_sub hostOps1 _ hostOps1_writes h
theorem Y4_of (c : Dev nD) (r : Ref sig .tc) (h : r ∉ hostOps1_1_W) : Y4 m c r = Y3 m c r :=
  StableHlo.after_of_writes_sub hostOps1_1 _ hostOps1_1_writes h
theorem Y5_of (c : Dev nD) (r : Ref sig .tc) (h : r ∉ hostOps1_2_W) : Y5 m c r = Y4 m c r :=
  StableHlo.after_of_writes_sub hostOps1_2 _ hostOps1_2_writes h
theorem Y6_of (c : Dev nD) (r : Ref sig .tc) (h : r ≠ main_v15) : Y6 m c r = Y5 m c r :=
  Function.update_of_ne (StableHlo.devRef_ne_of_ne h) ..
theorem Y7_of (c : Dev nD) (r : Ref sig .tc) (h : r ∉ hostOps2_W) : Y7 m c r = Y6 m c r :=
  StableHlo.after_of_writes_sub hostOps2 _ hostOps2_writes h
theorem Y8_of (c : Dev nD) (r : Ref sig .tc) (h : r ≠ main_v25) : Y8 m c r = Y7 m c r :=
  Function.update_of_ne (StableHlo.devRef_ne_of_ne h) ..
theorem Y9_of (c : Dev nD) (r : Ref sig .tc) (h : r ∉ hostOps3_W) : Y9 m c r = Y8 m c r :=
  StableHlo.after_of_writes_sub hostOps3 _ hostOps3_writes h
theorem Y10_of (c : Dev nD) (r : Ref sig .tc) (h : r ≠ main_v31) : Y10 m c r = Y9 m c r :=
  Function.update_of_ne (StableHlo.devRef_ne_of_ne h) ..
theorem Y11_of (c : Dev nD) (r : Ref sig .tc) (h : r ∉ hostOps4_W) : Y11 m c r = Y10 m c r :=
  StableHlo.after_of_writes_sub hostOps4 _ hostOps4_writes h
theorem Y12_of (c : Dev nD) (r : Ref sig .tc) (h : r ∉ hostOps4_1_W) : Y12 m c r = Y11 m c r :=
  StableHlo.after_of_writes_sub hostOps4_1 _ hostOps4_1_writes h
theorem Y13_of (c : Dev nD) (r : Ref sig .tc) (h : r ∉ hostOps4_2_W) : Y13 m c r = Y12 m c r :=
  StableHlo.after_of_writes_sub hostOps4_2 _ hostOps4_2_writes h
theorem Y14_of (c : Dev nD) (r : Ref sig .tc) (h : r ≠ main_v37) : Y14 m c r = Y13 m c r :=
  Function.update_of_ne (StableHlo.devRef_ne_of_ne h) ..
theorem Y15_of (c : Dev nD) (r : Ref sig .tc) (h : r ∉ hostOps5_W) : Y15 m c r = Y14 m c r :=
  StableHlo.after_of_writes_sub hostOps5 _ hostOps5_writes h

theorem Y2_out (c : Dev nD) : Y2 m c main_v9 = b2 m c := Function.update_self ..
theorem Y6_out (c : Dev nD) : Y6 m c main_v15 = b6 m c := Function.update_self ..
theorem Y8_out (c : Dev nD) : Y8 m c main_v25 = b8 m c := Function.update_self ..
theorem Y10_out (c : Dev nD) : Y10 m c main_v31 = b10 m c := Function.update_self ..
theorem Y14_out (c : Dev nD) : Y14 m c main_v37 = b14 m c := Function.update_self ..
theorem Y16_out (c : Dev nD) : Y16 m c main_v47 = b16 m c := Function.update_self ..

/-- What each region leaves, read off the contents right after it. -/
def outsF : Outs (F := F) := fun k r c => match k with
  | 2 => Y2 m c r | 6 => Y6 m c r | 8 => Y8 m c r | 10 => Y10 m c r | 14 => Y14 m c r | _ => Y16 m c r

theorem V2_eq (c : Dev nD) : V2 m (outsF m) c = Y2 m c := congrArg (Function.update (Y1 m c) main_v9) (Y2_out m c)
theorem V5_eq (c : Dev nD) : V5 m (outsF m) c = Y5 m c := by rw [V5, V4, V3, V2_eq]
theorem V6_eq (c : Dev nD) : V6 m (outsF m) c = Y6 m c := by
  rw [V6, V5_eq]; exact congrArg (Function.update (Y5 m c) main_v15) (Y6_out m c)
theorem V7_eq (c : Dev nD) : V7 m (outsF m) c = Y7 m c := by rw [V7, V6_eq]
theorem V8_eq (c : Dev nD) : V8 m (outsF m) c = Y8 m c := by
  rw [V8, V7_eq]; exact congrArg (Function.update (Y7 m c) main_v25) (Y8_out m c)
theorem V9_eq (c : Dev nD) : V9 m (outsF m) c = Y9 m c := by rw [V9, V8_eq]
theorem V10_eq (c : Dev nD) : V10 m (outsF m) c = Y10 m c := by
  rw [V10, V9_eq]; exact congrArg (Function.update (Y9 m c) main_v31) (Y10_out m c)
theorem V13_eq (c : Dev nD) : V13 m (outsF m) c = Y13 m c := by rw [V13, V12, V11, V10_eq]
theorem V14_eq (c : Dev nD) : V14 m (outsF m) c = Y14 m c := by
  rw [V14, V13_eq]; exact congrArg (Function.update (Y13 m c) main_v37) (Y14_out m c)
theorem V15_eq (c : Dev nD) : V15 m (outsF m) c = Y15 m c := by rw [V15, V14_eq]
theorem V16_eq (c : Dev nD) : V16 m (outsF m) c = Y16 m c := by
  rw [V16, V15_eq]; exact congrArg (Function.update (Y15 m c) main_v47) (Y16_out m c)

def pdats : (p : Fin 6) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T5 m) c
  | ⟨2, _⟩ => fun c => dat2 (T7 m) c
  | ⟨3, _⟩ => fun c => dat3 (T9 m) c
  | ⟨4, _⟩ => fun c => dat4 (T13 m) c
  | ⟨5, _⟩ => fun c => dat5 (T15 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- Equal contents are held alike. -/
theorem held_eq {V Y : Valuation τ sig (Elt F)} {c : Dev nD} (h : V = Y) :
    iprop(StableHlo.held (c : Thread nD τ) (Pipeline.ucRefs τ sig) V ∗ R c) ⊢ iprop(StableHlo.held (c : Thread nD τ) (Pipeline.ucRefs τ sig) Y ∗ R c) := h ▸ .rfl

/-- The contents after region `p`: its output array `o` at its final value, every other buffer as at entry. -/
abbrev Yout (p : Fin 6) (Yi : Dev nD → Valuation τ sig (Elt F)) (o : Fin (cfgs p).W) (c : Dev nD) : Valuation τ sig (Elt F) :=
  Function.update (Yi c) (Pipeline.arrRef (Pipeline.pin (pcfgs (F := F)) adm p).spec o) ((pdats m p c).arrAt o (Pipeline.pin (pcfgs (F := F)) adm p).N)

set_option backward.isDefEq.respectTransparency.types false in
/-- Region `p` as a segment from the contents `Yi` to `Yout`, given that its input arrays are read off `Yi` and `o` is its only output. -/
def mkReg (p : Fin 6) (lf : Pipeline.LaunchFacts (nD := nD) (τ := τ) cfgs p)
    (Yi : Dev nD → Valuation τ sig (Elt F)) (o : Fin (cfgs p).W)
    (hbody : ∀ c, BodyObligation (pdats m p c) (defs₀ (F := F)) Variants.none () Set.univ)
    (hin : ∀ w, w ≠ o → ((cfgs p).win w).isOut = false := by decide)
    (hA : ∀ c w, (pdats m p c).A w = Yi c (Pipeline.arrRef (cfgs p).spec w) := by intros; rfl)
    (hΦ : ∀ c t, (pdats m p c).Φ t = Pipeline.ΦA (cfgs p).spec c := by intros; rfl)
    (hq : ∀ c w, (pdats m p c).q w = fullShare := by intros; rfl)
    (howed : ∀ c t, (pdats m p c).owed t = 0 := by intros; rfl)
    (hrec : ∀ c, (pdats m p c).recorded 0 = Set.univ := by intros; rfl) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Yi c) ∗ R c)
  post c := iprop(StableHlo.held (c : Thread nD τ) (Pipeline.ucRefs τ sig) (Yout m p Yi o c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Yi c b)
  hentry c := by
    rw [Pipeline.ownSems0_none]
    have hsplit := Pipeline.arrays_of_unscopedBufs (p := p) (pcfgs (F := F)) adm (pdats m) lf.win lf.arr_whole c
      ((pdats m p c).share_full (hq c)) (fun b => Yi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed]
      icases HO with ⟨%W, HO⟩; iexists W; isplitr; · ipureintro; exact fun _ _ => Or.inl (hrec c ▸ trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Yi c b) (fun b => Yout m p Yi o c b) ((pdats m p c).arrAt · (cfgs p).N)
      (fun w => by
        by_cases h : w = o
        · subst h; exact Eq.symm (Function.update_self ..)
        · exact ((pdats m p c).arrAt_in w (hin w h) _).trans ((hA c w).trans (Function.update_of_ne (StableHlo.devRef_ne_of_ne fun e => h (lf.win.arr_inj e)) ..).symm))
      (fun b hb => Function.update_of_ne (StableHlo.devRef_ne_of_ne fun e => hb (Finset.mem_image.mpr ⟨o, Finset.mem_univ _, e.symm⟩)) ..)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

set_option backward.isDefEq.respectTransparency.types false in
def reg0 := mkReg m 0 launch0 (Y1 m) 2 (body_obligation0 (T1 m))
set_option backward.isDefEq.respectTransparency.types false in
def reg1 := mkReg m 1 launch1 (Y5 m) 3 (body_obligation1 (T5 m))
set_option backward.isDefEq.respectTransparency.types false in
def reg2 := mkReg m 2 launch2 (Y7 m) 4 (body_obligation2 (T7 m))
set_option backward.isDefEq.respectTransparency.types false in
def reg3 := mkReg m 3 launch3 (Y9 m) 2 (body_obligation3 (T9 m))
set_option backward.isDefEq.respectTransparency.types false in
def reg4 := mkReg m 4 launch4 (Y13 m) 3 (body_obligation4 (T13 m))
set_option backward.isDefEq.respectTransparency.types false in
def reg5 := mkReg m 5 launch5 (Y15 m) 4 (body_obligation5 (T15 m))

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m (emb₁ : Emb (URounds (GSem nD τ sig) Unit) 𝕄) () 𝒱₀ L lv (fun _ _ => rfl) ρ (outsF m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE6 := fun c => by iintro ⟨-, H⟩; iexact H)
    (reg0 m) (fun c => .rfl) (fun c => held_eq (V2_eq m c).symm)
    (reg1 m) (fun c => held_eq (V5_eq m c)) (fun c => held_eq (V6_eq m c).symm)
    (reg2 m) (fun c => held_eq (V7_eq m c)) (fun c => held_eq (V8_eq m c).symm)
    (reg3 m) (fun c => held_eq (V9_eq m c)) (fun c => held_eq (V10_eq m c).symm)
    (reg4 m) (fun c => held_eq (V13_eq m c)) (fun c => held_eq (V14_eq m c).symm)
    (reg5 m) (fun c => held_eq (V15_eq m c)) (fun c => held_eq (V16_eq m c).symm)

end Cert.KernelIdeal.Frm

end
-- ==== Proof.KI.RunV.lean ====
import proofs.«417496_j30210799960814_2_alg».proof.Proof.KI.Segs

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

local notation "𝕄" => MT nD τ sig Unit (Elt F) ℕ (UR sig nD τ) ℕ

set_option backward.isDefEq.respectTransparency.types false in
/-- The run of the sixteen items with the result read as well: the last contents hold `main_v47` at region 5's output and every argument as launched. -/
theorem run_v47 (ρ : Dev nD → PrngReg) : θ_run defs (onTc (τ := τ) (main (F := F))) ⟨m, fun _ => 0, ρ⟩ (fun r => ∀ c : Dev nD,
      r.2.mem ((c.tc : Thread nD τ).loc main_v47) = b16 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm (pdats m) () cellOf_inj (emb₁ : Emb (URounds (GSem nD τ sig) Unit) 𝕄) defs₀ 𝒱₀ L lv m ρ main
    (segs m (outsF m) 𝒱₀ L lv (fun _ c => R c) () (pdats m) (reg0 m) (reg1 m) (reg2 m) (reg3 m) (reg4 m) (reg5 m))
    (fun c Q => by
      rewrite [main_chain c, Seg.run_eq_chain,
        show (segs m (outsF m) 𝒱₀ L lv (fun _ c => R c) () (pdats m) (reg0 m) (reg1 m) (reg2 m) (reg3 m) (reg4 m) (reg5 m) c).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V16 m (outsF m) c))
    (hch := fun c => ⟨.rfl, .rfl, held_eq (V2_eq m c).symm, .rfl, .rfl, held_eq (V5_eq m c), held_eq (V6_eq m c).symm, held_eq (V7_eq m c), held_eq (V8_eq m c).symm, held_eq (V9_eq m c), held_eq (V10_eq m c).symm, .rfl, .rfl, held_eq (V13_eq m c), held_eq (V14_eq m c).symm, held_eq (V15_eq m c),
      (held_eq (V16_eq m c).symm).trans (sep_mono .rfl (by iintro ⟨-, H⟩; iexact H))⟩)
    (hinit := Pipeline.initEach L lv fun c => ?_) (QY := _) (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V16 m (outsF m) c) s') $$ [Hh HSI]
    · isplitl [Hh] <;> iassumption
    icases Hr with ⟨%h, HSI⟩
    imodintro
    isplitr
    · ipureintro
      have hm := fun (r : Ref sig .tc) hr => h (Proc.devRef .tc r) (Finset.mem_filter.mpr ⟨StableHlo.devRef_mem_tcRefs r, hr⟩)
      exact ⟨(hm main_v47 (by decide)).trans ((congrFun (V16_eq m c) _).trans (Y16_out m c)),
        (hm main_arg0 (by decide)).trans (V16_main_arg0 m (outsF m) c),
        (hm main_arg1 (by decide)).trans (V16_main_arg1 m (outsF m) c),
        (hm main_arg2 (by decide)).trans (V16_main_arg2 m (outsF m) c),
        (hm main_arg3 (by decide)).trans (V16_main_arg3 m (outsF m) c),
        (hm main_arg4 (by decide)).trans (V16_main_arg4 m (outsF m) c),
        (hm main_arg5 (by decide)).trans (V16_main_arg5 m (outsF m) c),
        (hm main_arg6 (by decide)).trans (V16_main_arg6 m (outsF m) c),
        (hm main_arg7 (by decide)).trans (V16_main_arg7 m (outsF m) c),
        (hm main_arg8 (by decide)).trans (V16_main_arg8 m (outsF m) c)⟩
    · iexact HSI

end Cert.KernelIdeal.Frm

end
-- ==== Proof.Ref.Ops.lean ====
import proofs.«417496_j30210799960814_2_alg».proof.ReferenceIdeal
import proofs.«417496_j30210799960814_2_alg».proof.Proof.Gen.ReferenceIdeal
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in

local notation "T[" s "; " e "]" => (⟨s, e⟩ : BufTy).Contents (Elt F)

local macro "writes_one" : tactic =>
  `(tactic| (simp only [TRef.nullary, TRef.unary, TRef.binary, TRef.ternary, nullary_writes, unary_writes, binary_writes,
      ternary_writes, reshape_writes, Finset.singleton_subset_iff, List.mem_toFinset]
             exact List.mem_map_of_mem (by decide)))

abbrev ops0 : List (HloOp τ sig (Elt F)) :=
  [ unary main_arg1 main_v0 ((extractStridedSlice S1x1600000 ![0, 0] · slices_S2x1600000_S1x1600000_0_0) : T[S2x1600000; .i32] → T[S1x1600000; .i32]),
    StableHlo.reshape main_v0 main_v1 rfl shapeCasts_S1x1600000_S1600000,
    unary main_arg1 main_v2 ((extractStridedSlice S1x1600000 ![1, 0] · slices_S2x1600000_S1x1600000_1_0) : T[S2x1600000; .i32] → T[S1x1600000; .i32]),
    StableHlo.reshape main_v2 main_v3 rfl shapeCasts_S1x1600000_S1600000,
    unary main_arg3 main_v4 ((extractStridedSlice S1x128x16 ![0, 0, 0] · slices_S2x128x16_S1x128x16_0_0_0) : T[S2x128x16; .f32] → T[S1x128x16; .f32]),
    StableHlo.reshape main_v4 main_v5 rfl shapeCasts_S1x128x16_S128x16,
    binary main_arg0 main_v5 main_v6 ((fun l r => Host.dotGeneral dot_S100000x128_S128x16_S100000x16_1_0_0_1_n_n none l r) : T[S100000x128; .f32] → T[S128x16; .f32] → T[S100000x16; .f32]),
    unary main_arg3 main_v7 ((extractStridedSlice S1x128x16 ![1, 0, 0] · slices_S2x128x16_S1x128x16_1_0_0) : T[S2x128x16; .f32] → T[S1x128x16; .f32]),
    StableHlo.reshape main_v7 main_v8 rfl shapeCasts_S1x128x16_S128x16,
    binary main_arg0 main_v8 main_v9 ((fun l r => Host.dotGeneral dot_S100000x128_S128x16_S100000x16_1_0_0_1_n_n none l r) : T[S100000x128; .f32] → T[S128x16; .f32] → T[S100000x16; .f32]) ]

abbrev ops1 : List (HloOp τ sig (Elt F)) :=
  [ StableHlo.reshape main_arg2 main_v10 rfl shapeCasts_S1600000x1_S1600000,
    nullary main_cst (constant S_ .f32 0x3F800000#32),
    unary main_cst main_v11 (broadcastInDim S1600000 ![] bcast_S_S1600000 : T[S_; .f32] → T[S1600000; .f32]),
    binary main_v11 main_v10 main_v12 (subf : T[S1600000; .f32] → T[S1600000; .f32] → T[S1600000; .f32]),
    unary main_v12 main_v13 (broadcastInDim S1600000x1 ![0] bcast_S1600000_S1600000x1_0 : T[S1600000; .f32] → T[S1600000x1; .f32]),
    nullary main_c (constantI S_ 32 0#32),
    unary main_c main_v14 (broadcastInDim S1600000 ![] bcast_S_S1600000 : T[S_; .i32] → T[S1600000; .i32]),
    binary main_v1 main_v14 main_v15 (cmpi .slt : T[S1600000; .i32] → T[S1600000; .i32] → T[S1600000; .i1]),
    nullary main_c_0 (constantI S_ 32 100000#32),
    unary main_c_0 main_v16 (broadcastInDim S1600000 ![] bcast_S_S1600000 : T[S_; .i32] → T[S1600000; .i32]),
    binary main_v1 main_v16 main_v17 (addi : T[S1600000; .i32] → T[S1600000; .i32] → T[S1600000; .i32]),
    ternary main_v15 main_v17 main_v1 main_v18 (select : T[S1600000; .i1] → T[S1600000; .i32] → T[S1600000; .i32] → T[S1600000; .i32]),
    unary main_v18 main_v19 (broadcastInDim S1600000x1 ![0] bcast_S1600000_S1600000x1_0 : T[S1600000; .i32] → T[S1600000x1; .i32]),
    binary main_v6 main_v19 main_v20 ((fun x i => Host.gather gather_S100000x16_S1600000x1_S1600000x16_1_0_n_n_0_1_116 x i) : T[S100000x16; .f32] → T[S1600000x1; .i32] → T[S1600000x16; .f32]),
    unary main_v13 main_v21 (broadcastInDim S1600000x16 ![0, 1] bcast_S1600000x1_S1600000x16_0_1 : T[S1600000x1; .f32] → T[S1600000x16; .f32]),
    binary main_v21 main_v20 main_v22 (mulf : T[S1600000x16; .f32] → T[S1600000x16; .f32] → T[S1600000x16; .f32]),
    unary main_v10 main_v23 (broadcastInDim S1600000x1 ![0] bcast_S1600000_S1600000x1_0 : T[S1600000; .f32] → T[S1600000x1; .f32]),
    nullary main_c_1 (constantI S_ 32 0#32),
    unary main_c_1 main_v24 (broadcastInDim S1600000 ![] bcast_S_S1600000 : T[S_; .i32] → T[S1600000; .i32]),
    binary main_v1 main_v24 main_v25 (cmpi .slt : T[S1600000; .i32] → T[S1600000; .i32] → T[S1600000; .i1]),
    nullary main_c_2 (constantI S_ 32 100000#32),
    unary main_c_2 main_v26 (broadcastInDim S1600000 ![] bcast_S_S1600000 : T[S_; .i32] → T[S1600000; .i32]),
    binary main_v1 main_v26 main_v27 (addi : T[S1600000; .i32] → T[S1600000; .i32] → T[S1600000; .i32]),
    ternary main_v25 main_v27 main_v1 main_v28 (select : T[S1600000; .i1] → T[S1600000; .i32] → T[S1600000; .i32] → T[S1600000; .i32]),
    unary main_v28 main_v29 (broadcastInDim S1600000x1 ![0] bcast_S1600000_S1600000x1_0 : T[S1600000; .i32] → T[S1600000x1; .i32]),
    binary main_v9 main_v29 main_v30 ((fun x i => Host.gather gather_S100000x16_S1600000x1_S1600000x16_1_0_n_n_0_1_116 x i) : T[S100000x16; .f32] → T[S1600000x1; .i32] → T[S1600000x16; .f32]),
    unary main_v23 main_v31 (broadcastInDim S1600000x16 ![0, 1] bcast_S1600000x1_S1600000x16_0_1 : T[S1600000x1; .f32] → T[S1600000x16; .f32]),
    binary main_v31 main_v30 main_v32 (mulf : T[S1600000x16; .f32] → T[S1600000x16; .f32] → T[S1600000x16; .f32]),
    binary main_v22 main_v32 main_v33 (addf : T[S1600000x16; .f32] → T[S1600000x16; .f32] → T[S1600000x16; .f32]) ]

abbrev ops2 : List (HloOp τ sig (Elt F)) :=
  [ nullary main_cst_3 (constant S_ .f32 0x00000000#32),
    unary main_cst_3 main_v34 (broadcastInDim S100000x16 ![] bcast_S_S100000x16 : T[S_; .f32] → T[S100000x16; .f32]),
    unary main_v3 main_v35 (broadcastInDim S1600000x1 ![0] bcast_S1600000_S1600000x1_0 : T[S1600000; .i32] → T[S1600000x1; .i32]),
    ternary main_v34 main_v35 main_v33 main_v36 ((fun x i u => Host.scatterAdd scatter_S100000x16_S1600000x1_S1600000x16_1_0_0_1 x i u) : T[S100000x16; .f32] → T[S1600000x1; .i32] → T[S1600000x16; .f32] → T[S100000x16; .f32]),
    nullary main_cst_4 (constant S_ .f32 0x3F800000#32),
    unary main_cst_4 main_v37 (broadcastInDim S1600000 ![] bcast_S_S1600000 : T[S_; .f32] → T[S1600000; .f32]),
    nullary main_cst_5 (constant S_ .f32 0x00000000#32),
    unary main_cst_5 main_v38 (broadcastInDim S100000 ![] bcast_S_S100000 : T[S_; .f32] → T[S100000; .f32]),
    unary main_v3 main_v39 (broadcastInDim S1600000x1 ![0] bcast_S1600000_S1600000x1_0 : T[S1600000; .i32] → T[S1600000x1; .i32]),
    ternary main_v38 main_v39 main_v37 main_v40 ((fun x i u => Host.scatterAdd scatter_S100000_S1600000x1_S1600000_n_0_0_1 x i u) : T[S100000; .f32] → T[S1600000x1; .i32] → T[S1600000; .f32] → T[S100000; .f32]) ]

abbrev ops3 : List (HloOp τ sig (Elt F)) :=
  [ nullary main_cst_6 (constant S_ .f32 0x3F800000#32),
    unary main_cst_6 main_v41 (broadcastInDim S100000 ![] bcast_S_S100000 : T[S_; .f32] → T[S100000; .f32]),
    binary main_v40 main_v41 main_v42 (maximumf : T[S100000; .f32] → T[S100000; .f32] → T[S100000; .f32]),
    unary main_v42 main_v43 (broadcastInDim S100000x1 ![0] bcast_S100000_S100000x1_0 : T[S100000; .f32] → T[S100000x1; .f32]),
    unary main_v43 main_v44 (broadcastInDim S100000x16 ![0, 1] bcast_S100000x1_S100000x16_0_1 : T[S100000x1; .f32] → T[S100000x16; .f32]),
    binary main_v36 main_v44 main_v45 (Host.divf : T[S100000x16; .f32] → T[S100000x16; .f32] → T[S100000x16; .f32]),
    binary main_arg0 main_arg4 main_v46 ((fun l r => Host.dotGeneral dot_S100000x128_S128x16_S100000x16_1_0_0_1_n_n none l r) : T[S100000x128; .f32] → T[S128x16; .f32] → T[S100000x16; .f32]),
    binary main_v45 main_v46 main_v47 (addf : T[S100000x16; .f32] → T[S100000x16; .f32] → T[S100000x16; .f32]),
    unary main_arg5 main_v48 (broadcastInDim S1x16 ![1] bcast_S16_S1x16_1 : T[S16; .f32] → T[S1x16; .f32]),
    unary main_v48 main_v49 (broadcastInDim S100000x16 ![0, 1] bcast_S1x16_S100000x16_0_1 : T[S1x16; .f32] → T[S100000x16; .f32]),
    binary main_v47 main_v49 main_v50 (addf : T[S100000x16; .f32] → T[S100000x16; .f32] → T[S100000x16; .f32]) ]

abbrev ops4 : List (HloOp τ sig (Elt F)) :=
  [ TRef.nullary main_call0.cst (constant S_ .f32 0x00000000#32),
    TRef.unary main_call0.cst main_call0.v0 (broadcastInDim S100000x16 ![] bcast_S_S100000x16),
    TRef.binary (.of main_v50 : TRef sig ⟨S100000x16, .f32⟩) main_call0.v0 main_call0.v1 (cmpf .ogt),
    TRef.nullary main_call0.cst_0 (constant S_ .f32 0x00000000#32),
    TRef.unary main_call0.cst_0 main_call0.v2 (broadcastInDim S100000x16 ![] bcast_S_S100000x16),
    TRef.binary (.of main_v50 : TRef sig ⟨S100000x16, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x16 ![] bcast_S_S100000x16),
    TRef.ternary main_call0.v3 main_call0.call0.v1 (.of main_v50 : TRef sig ⟨S100000x16, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x16 ![] bcast_S_S100000x16),
    TRef.binary main_call0.v6 main_call0.v5 main_call0.v7 mulf,
    TRef.ternary main_call0.v1 (.of main_v50 : TRef sig ⟨S100000x16, .f32⟩) main_call0.v7 main_call0.call1.v0 select ]

abbrev ops5 : List (HloOp τ sig (Elt F)) :=
  [ unary main_arg6 main_v52 ((extractStridedSlice S1x16x10 ![0, 0, 0] · slices_S2x16x10_S1x16x10_0_0_0) : T[S2x16x10; .f32] → T[S1x16x10; .f32]),
    StableHlo.reshape main_v52 main_v53 rfl shapeCasts_S1x16x10_S16x10,
    binary main_v51 main_v53 main_v54 ((fun l r => Host.dotGeneral dot_S100000x16_S16x10_S100000x10_1_0_0_1_n_n none l r) : T[S100000x16; .f32] → T[S16x10; .f32] → T[S100000x10; .f32]),
    unary main_arg6 main_v55 ((extractStridedSlice S1x16x10 ![1, 0, 0] · slices_S2x16x10_S1x16x10_1_0_0) : T[S2x16x10; .f32] → T[S1x16x10; .f32]),
    StableHlo.reshape main_v55 main_v56 rfl shapeCasts_S1x16x10_S16x10,
    binary main_v51 main_v56 main_v57 ((fun l r => Host.dotGeneral dot_S100000x16_S16x10_S100000x10_1_0_0_1_n_n none l r) : T[S100000x16; .f32] → T[S16x10; .f32] → T[S100000x10; .f32]) ]

abbrev ops6 : List (HloOp τ sig (Elt F)) :=
  [ StableHlo.reshape main_arg2 main_v58 rfl shapeCasts_S1600000x1_S1600000,
    nullary main_cst_7 (constant S_ .f32 0x3F800000#32),
    unary main_cst_7 main_v59 (broadcastInDim S1600000 ![] bcast_S_S1600000 : T[S_; .f32] → T[S1600000; .f32]),
    binary main_v59 main_v58 main_v60 (subf : T[S1600000; .f32] → T[S1600000; .f32] → T[S1600000; .f32]),
    unary main_v60 main_v61 (broadcastInDim S1600000x1 ![0] bcast_S1600000_S1600000x1_0 : T[S1600000; .f32] → T[S1600000x1; .f32]),
    nullary main_c_8 (constantI S_ 32 0#32),
    unary main_c_8 main_v62 (broadcastInDim S1600000 ![] bcast_S_S1600000 : T[S_; .i32] → T[S1600000; .i32]),
    binary main_v1 main_v62 main_v63 (cmpi .slt : T[S1600000; .i32] → T[S1600000; .i32] → T[S1600000; .i1]),
    nullary main_c_9 (constantI S_ 32 100000#32),
    unary main_c_9 main_v64 (broadcastInDim S1600000 ![] bcast_S_S1600000 : T[S_; .i32] → T[S1600000; .i32]),
    binary main_v1 main_v64 main_v65 (addi : T[S1600000; .i32] → T[S1600000; .i32] → T[S1600000; .i32]),
    ternary main_v63 main_v65 main_v1 main_v66 (select : T[S1600000; .i1] → T[S1600000; .i32] → T[S1600000; .i32] → T[S1600000; .i32]),
    unary main_v66 main_v67 (broadcastInDim S1600000x1 ![0] bcast_S1600000_S1600000x1_0 : T[S1600000; .i32] → T[S1600000x1; .i32]),
    binary main_v54 main_v67 main_v68 ((fun x i => Host.gather gather_S100000x10_S1600000x1_S1600000x10_1_0_n_n_0_1_110 x i) : T[S100000x10; .f32] → T[S1600000x1; .i32] → T[S1600000x10; .f32]),
    unary main_v61 main_v69 (broadcastInDim S1600000x10 ![0, 1] bcast_S1600000x1_S1600000x10_0_1 : T[S1600000x1; .f32] → T[S1600000x10; .f32]),
    binary main_v69 main_v68 main_v70 (mulf : T[S1600000x10; .f32] → T[S1600000x10; .f32] → T[S1600000x10; .f32]),
    unary main_v58 main_v71 (broadcastInDim S1600000x1 ![0] bcast_S1600000_S1600000x1_0 : T[S1600000; .f32] → T[S1600000x1; .f32]),
    nullary main_c_10 (constantI S_ 32 0#32),
    unary main_c_10 main_v72 (broadcastInDim S1600000 ![] bcast_S_S1600000 : T[S_; .i32] → T[S1600000; .i32]),
    binary main_v1 main_v72 main_v73 (cmpi .slt : T[S1600000; .i32] → T[S1600000; .i32] → T[S1600000; .i1]),
    nullary main_c_11 (constantI S_ 32 100000#32),
    unary main_c_11 main_v74 (broadcastInDim S1600000 ![] bcast_S_S1600000 : T[S_; .i32] → T[S1600000; .i32]),
    binary main_v1 main_v74 main_v75 (addi : T[S1600000; .i32] → T[S1600000; .i32] → T[S1600000; .i32]),
    ternary main_v73 main_v75 main_v1 main_v76 (select : T[S1600000; .i1] → T[S1600000; .i32] → T[S1600000; .i32] → T[S1600000; .i32]),
    unary main_v76 main_v77 (broadcastInDim S1600000x1 ![0] bcast_S1600000_S1600000x1_0 : T[S1600000; .i32] → T[S1600000x1; .i32]),
    binary main_v57 main_v77 main_v78 ((fun x i => Host.gather gather_S100000x10_S1600000x1_S1600000x10_1_0_n_n_0_1_110 x i) : T[S100000x10; .f32] → T[S1600000x1; .i32] → T[S1600000x10; .f32]),
    unary main_v71 main_v79 (broadcastInDim S1600000x10 ![0, 1] bcast_S1600000x1_S1600000x10_0_1 : T[S1600000x1; .f32] → T[S1600000x10; .f32]),
    binary main_v79 main_v78 main_v80 (mulf : T[S1600000x10; .f32] → T[S1600000x10; .f32] → T[S1600000x10; .f32]),
    binary main_v70 main_v80 main_v81 (addf : T[S1600000x10; .f32] → T[S1600000x10; .f32] → T[S1600000x10; .f32]) ]

abbrev ops7 : List (HloOp τ sig (Elt F)) :=
  [ nullary main_cst_12 (constant S_ .f32 0x00000000#32),
    unary main_cst_12 main_v82 (broadcastInDim S100000x10 ![] bcast_S_S100000x10 : T[S_; .f32] → T[S100000x10; .f32]),
    unary main_v3 main_v83 (broadcastInDim S1600000x1 ![0] bcast_S1600000_S1600000x1_0 : T[S1600000; .i32] → T[S1600000x1; .i32]),
    ternary main_v82 main_v83 main_v81 main_v84 ((fun x i u => Host.scatterAdd scatter_S100000x10_S1600000x1_S1600000x10_1_0_0_1 x i u) : T[S100000x10; .f32] → T[S1600000x1; .i32] → T[S1600000x10; .f32] → T[S100000x10; .f32]),
    nullary main_cst_13 (constant S_ .f32 0x3F800000#32),
    unary main_cst_13 main_v85 (broadcastInDim S1600000 ![] bcast_S_S1600000 : T[S_; .f32] → T[S1600000; .f32]),
    nullary main_cst_14 (constant S_ .f32 0x00000000#32),
    unary main_cst_14 main_v86 (broadcastInDim S100000 ![] bcast_S_S100000 : T[S_; .f32] → T[S100000; .f32]),
    unary main_v3 main_v87 (broadcastInDim S1600000x1 ![0] bcast_S1600000_S1600000x1_0 : T[S1600000; .i32] → T[S1600000x1; .i32]),
    ternary main_v86 main_v87 main_v85 main_v88 ((fun x i u => Host.scatterAdd scatter_S100000_S1600000x1_S1600000_n_0_0_1 x i u) : T[S100000; .f32] → T[S1600000x1; .i32] → T[S1600000; .f32] → T[S100000; .f32]) ]

abbrev ops8 : List (HloOp τ sig (Elt F)) :=
  [ nullary main_cst_15 (constant S_ .f32 0x3F800000#32),
    unary main_cst_15 main_v89 (broadcastInDim S100000 ![] bcast_S_S100000 : T[S_; .f32] → T[S100000; .f32]),
    binary main_v88 main_v89 main_v90 (maximumf : T[S100000; .f32] → T[S100000; .f32] → T[S100000; .f32]),
    unary main_v90 main_v91 (broadcastInDim S100000x1 ![0] bcast_S100000_S100000x1_0 : T[S100000; .f32] → T[S100000x1; .f32]),
    unary main_v91 main_v92 (broadcastInDim S100000x10 ![0, 1] bcast_S100000x1_S100000x10_0_1 : T[S100000x1; .f32] → T[S100000x10; .f32]),
    binary main_v84 main_v92 main_v93 (Host.divf : T[S100000x10; .f32] → T[S100000x10; .f32] → T[S100000x10; .f32]),
    binary main_v51 main_arg7 main_v94 ((fun l r => Host.dotGeneral dot_S100000x16_S16x10_S100000x10_1_0_0_1_n_n none l r) : T[S100000x16; .f32] → T[S16x10; .f32] → T[S100000x10; .f32]),
    binary main_v93 main_v94 main_v95 (addf : T[S100000x10; .f32] → T[S100000x10; .f32] → T[S100000x10; .f32]),
    unary main_arg8 main_v96 (broadcastInDim S1x10 ![1] bcast_S10_S1x10_1 : T[S10; .f32] → T[S1x10; .f32]),
    unary main_v96 main_v97 (broadcastInDim S100000x10 ![0, 1] bcast_S1x10_S100000x10_0_1 : T[S1x10; .f32] → T[S100000x10; .f32]),
    binary main_v95 main_v97 main_v98 (addf : T[S100000x10; .f32] → T[S100000x10; .f32] → T[S100000x10; .f32]) ]

abbrev RV0 (m : (ℓ : Loc nD τ sig) → Buf (Elt F) ℓ) (c : Dev nD) : Valuation τ sig (Elt F) := StableHlo.after ops0 (fun b => m (c, b))

abbrev RV1 (m : (ℓ : Loc nD τ sig) → Buf (Elt F) ℓ) (c : Dev nD) : Valuation τ sig (Elt F) := StableHlo.after ops1 (RV0 m c)

abbrev RV2 (m : (ℓ : Loc nD τ sig) → Buf (Elt F) ℓ) (c : Dev nD) : Valuation τ sig (Elt F) := StableHlo.after ops2 (RV1 m c)

abbrev RV3 (m : (ℓ : Loc nD τ sig) → Buf (Elt F) ℓ) (c : Dev nD) : Valuation τ sig (Elt F) := StableHlo.after ops3 (RV2 m c)

abbrev RV4 (m : (ℓ : Loc nD τ sig) → Buf (Elt F) ℓ) (c : Dev nD) : Valuation τ sig (Elt F) := StableHlo.after ops4 (RV3 m c)

abbrev RV5 (m : (ℓ : Loc nD τ sig) → Buf (Elt F) ℓ) (c : Dev nD) : Valuation τ sig (Elt F) := StableHlo.after ops5 (RV4 m c)

abbrev RV6 (m : (ℓ : Loc nD τ sig) → Buf (Elt F) ℓ) (c : Dev nD) : Valuation τ sig (Elt F) := StableHlo.after ops6 (RV5 m c)

abbrev RV7 (m : (ℓ : Loc nD τ sig) → Buf (Elt F) ℓ) (c : Dev nD) : Valuation τ sig (Elt F) := StableHlo.after ops7 (RV6 m c)

abbrev RV8 (m : (ℓ : Loc nD τ sig) → Buf (Elt F) ℓ) (c : Dev nD) : Valuation τ sig (Elt F) := StableHlo.after ops8 (RV7 m c)

abbrev ops0_W : List (Ref sig .tc) := [main_v0, main_v1, main_v2, main_v3, main_v4, main_v5, main_v6, main_v7, main_v8, main_v9]
theorem ops0_writes : (ops0 : List (HloOp τ sig (Elt F))).Forall fun op => op.writes ⊆ (ops0_W.map (Proc.devRef (τ := τ) .tc)).toFinset := by
  simp only [ops0, List.Forall]; repeat' apply And.intro
  all_goals writes_one

abbrev ops1_W : List (Ref sig .tc) := [main_v10, main_cst, main_v11, main_v12, main_v13, main_c, main_v14, main_v15, main_c_0, main_v16, main_v17, main_v18, main_v19, main_v20, main_v21, main_v22, main_v23, main_c_1, main_v24, main_v25, main_c_2, main_v26, main_v27, main_v28, main_v29, main_v30, main_v31, main_v32, main_v33]
theorem ops1_writes : (ops1 : List (HloOp τ sig (Elt F))).Forall fun op => op.writes ⊆ (ops1_W.map (Proc.devRef (τ := τ) .tc)).toFinset := by
  simp only [ops1, List.Forall]; repeat' apply And.intro
  all_goals writes_one

abbrev ops2_W : List (Ref sig .tc) := [main_cst_3, main_v34, main_v35, main_v36, main_cst_4, main_v37, main_cst_5, main_v38, main_v39, main_v40]
theorem ops2_writes : (ops2 : List (HloOp τ sig (Elt F))).Forall fun op => op.writes ⊆ (ops2_W.map (Proc.devRef (τ := τ) .tc)).toFinset := by
  simp only [ops2, List.Forall]; repeat' apply And.intro
  all_goals writes_one

abbrev ops3_W : List (Ref sig .tc) := [main_cst_6, main_v41, main_v42, main_v43, main_v44, main_v45, main_v46, main_v47, main_v48, main_v49, main_v50]
theorem ops3_writes : (ops3 : List (HloOp τ sig (Elt F))).Forall fun op => op.writes ⊆ (ops3_W.map (Proc.devRef (τ := τ) .tc)).toFinset := by
  simp only [ops3, List.Forall]; repeat' apply And.intro
  all_goals writes_one

abbrev ops4_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v51]
theorem ops4_writes : (ops4 : List (HloOp τ sig (Elt F))).Forall fun op => op.writes ⊆ (ops4_W.map (Proc.devRef (τ := τ) .tc)).toFinset := by
  simp only [ops4, List.Forall]; repeat' apply And.intro
  all_goals writes_one

abbrev ops5_W : List (Ref sig .tc) := [main_v52, main_v53, main_v54, main_v55, main_v56, main_v57]
theorem ops5_writes : (ops5 : List (HloOp τ sig (Elt F))).Forall fun op => op.writes ⊆ (ops5_W.map (Proc.devRef (τ := τ) .tc)).toFinset := by
  simp only [ops5, List.Forall]; repeat' apply And.intro
  all_goals writes_one

abbrev ops6_W : List (Ref sig .tc) := [main_v58, main_cst_7, main_v59, main_v60, main_v61, main_c_8, main_v62, main_v63, main_c_9, main_v64, main_v65, main_v66, main_v67, main_v68, main_v69, main_v70, main_v71, main_c_10, main_v72, main_v73, main_c_11, main_v74, main_v75, main_v76, main_v77, main_v78, main_v79, main_v80, main_v81]
theorem ops6_writes : (ops6 : List (HloOp τ sig (Elt F))).Forall fun op => op.writes ⊆ (ops6_W.map (Proc.devRef (τ := τ) .tc)).toFinset := by
  simp only [ops6, List.Forall]; repeat' apply And.intro
  all_goals writes_one

abbrev ops7_W : List (Ref sig .tc) := [main_cst_12, main_v82, main_v83, main_v84, main_cst_13, main_v85, main_cst_14, main_v86, main_v87, main_v88]
theorem ops7_writes : (ops7 : List (HloOp τ sig (Elt F))).Forall fun op => op.writes ⊆ (ops7_W.map (Proc.devRef (τ := τ) .tc)).toFinset := by
  simp only [ops7, List.Forall]; repeat' apply And.intro
  all_goals writes_one

abbrev ops8_W : List (Ref sig .tc) := [main_cst_15, main_v89, main_v90, main_v91, main_v92, main_v93, main_v94, main_v95, main_v96, main_v97, main_v98]
theorem ops8_writes : (ops8 : List (HloOp τ sig (Elt F))).Forall fun op => op.writes ⊆ (ops8_W.map (Proc.devRef (τ := τ) .tc)).toFinset := by
  simp only [ops8, List.Forall]; repeat' apply And.intro
  all_goals writes_one

end Cert.ReferenceIdeal.RefRun

end
-- ==== Proof.Ref.Run.lean ====
import proofs.«417496_j30210799960814_2_alg».proof.Proof.Ref.Ops
import proofs.«417496_j30210799960814_2_alg».proof.Proof.Gen.Pre_finite_inputs
import proofs.«417496_j30210799960814_2_alg».proof.Defs
import Idealize.ShloMosaic.Lib.Pipeline.Frame

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) := ops0 ++ ops1 ++ ops2 ++ ops3

abbrev opsB : List (HloOp τ sig (Elt F)) := ops4 ++ ops5 ++ ops6 ++ ops7 ++ ops8

abbrev opsAll : List (HloOp τ sig (Elt F)) := opsA ++ opsB

theorem part0_eq (c : Dev nD) : main_part0 (F := F) c = seq opsA := rfl

theorem part1_eq (c : Dev nD) : main_part1 (F := F) c = seq opsB := by
  rw [show (opsB : List (HloOp τ sig (Elt F))) = ops4 ++ (ops5 ++ ops6 ++ ops7 ++ ops8) from by simp only [List.append_assoc],
    seq_append]
  simp only [main_part1, fn_elu.body, fn_where.body, fn_where_0.body, ops4, seq, bind_assoc, pure_bind]
  rfl

theorem main_eq (c : Dev nD) : main (F := F) c = seq opsAll := by
  rw [show (opsAll : List (HloOp τ sig (Elt F))) = opsA ++ opsB from rfl, seq_append, ← part0_eq c, ← part1_eq c]
  rfl

theorem opsAll_sub : (opsAll : List (HloOp τ sig (Elt F))).Forall fun op => op.bufs ⊆ tcRefs τ sig := by
  simp only [opsAll, opsA, opsB, List.forall_append, List.Forall, TRef.nullary, TRef.unary, TRef.binary, TRef.ternary,
    nullary_bufs_sub, unary_bufs_sub, binary_bufs_sub, ternary_bufs_sub, reshape_bufs_sub, and_self]

theorem opsAll_fresh : ∀ op ∈ (opsAll : List (HloOp τ sig (Elt F))), op.fresh = ∅ :=
  List.forall_iff_forall_mem.mp (by
    simp only [opsAll, opsA, opsB, List.forall_append]
    refine ⟨⟨⟨⟨?_, ?_⟩, ?_⟩, ?_⟩, ⟨⟨⟨?_, ?_⟩, ?_⟩, ?_⟩, ?_⟩ <;> simp only [List.Forall] <;> repeat' constructor)

theorem after_all (V : Valuation τ sig (Elt F)) :
    after opsAll V = after ops8 (after ops7 (after ops6 (after ops5 (after ops4 (after ops3 (after ops2 (after ops1 (after ops0 V)))))))) := by
  simp only [opsAll, opsA, opsB, after_append]

-- A reference no stretch writes holds after the program what it held before.
theorem kept (V : Valuation τ sig (Elt F)) (r : Ref sig .tc)
    (h : r ∉ ops0_W ++ ops1_W ++ ops2_W ++ ops3_W ++ ops4_W ++ ops5_W ++ ops6_W ++ ops7_W ++ ops8_W) :
    after opsAll V (Proc.devRef .tc r) = V (Proc.devRef .tc r) := by
  simp only [List.mem_append, not_or] at h
  obtain ⟨⟨⟨⟨⟨⟨⟨⟨h0, h1⟩, h2⟩, h3⟩, h4⟩, h5⟩, h6⟩, h7⟩, h8⟩ := h
  rw [after_all, after_of_writes_sub ops8 _ ops8_writes h8, after_of_writes_sub ops7 _ ops7_writes h7,
    after_of_writes_sub ops6 _ ops6_writes h6, after_of_writes_sub ops5 _ ops5_writes h5, after_of_writes_sub ops4 _ ops4_writes h4,
    after_of_writes_sub ops3 _ ops3_writes h3, after_of_writes_sub ops2 _ ops2_writes h2, after_of_writes_sub ops1 _ ops1_writes h1,
    after_of_writes_sub ops0 _ ops0_writes h0]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v98) = RV8 m c main_v98
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v98).trans (congrFun (after_all _) _),
      (h c main_arg0).trans (kept _ _ (by decide)), (h c main_arg1).trans (kept _ _ (by decide)), (h c main_arg2).trans (kept _ _ (by decide)),
      (h c main_arg3).trans (kept _ _ (by decide)), (h c main_arg4).trans (kept _ _ (by decide)), (h c main_arg5).trans (kept _ _ (by decide)),
      (h c main_arg6).trans (kept _ _ (by decide)), (h c main_arg7).trans (kept _ _ (by decide)), (h c main_arg8).trans (kept _ _ (by decide))⟩)
    (run_seq (by decide) (by decide) defs main (fun _ => opsAll) main_eq (fun _ => opsAll_sub) m ρ (fun _ => opsAll_fresh))

theorem frame : Cert.frame_ReferenceIdeal (hReferenceIdeal := Cert.ReferenceIdeal.Gen.facts) (hPre_finite_inputs := Cert.Pre_finite_inputs.Gen.facts) :=
  fun m ρ _ => (θ_run _ _ _).mono (fun _ h c => (h c).2) (run (F := Ideal) m ρ)

end Cert.ReferenceIdeal.RefRun

end
-- ==== Proof.PreRange.lean ====
import proofs.«417496_j30210799960814_2_alg».proof.Defs
import proofs.«417496_j30210799960814_2_alg».proof.Proof.Gen.Pre_finite_inputs
import Idealize.ShloMosaic.Lib.ReduceAll
import Idealize.ShloMosaic.Lib.ValueLayout
import Idealize.ShloMosaic.Lib.IdealHost

set_option maxRecDepth 16384

noncomputable section

namespace Cert.PreRange

open Idealize.ShloMosaic Idealize.ShloMosaic.ValueIdx Idealize.SL.Sem
open Cert.Pre_finite_inputs Cert.Pre_finite_inputs.Gen

instance : Subsingleton S_.Idx := ⟨fun a b => funext fun d => d.elim0⟩

theorem toInt_lo : (4294867296#32 : BitVec 32).toInt = -100000 := by decide
theorem toInt_hi : (100000#32 : BitVec 32).toInt = 100000 := by decide
theorem toInt_zero : (0#32 : BitVec 32).toInt = 0 := by decide

-- The reshape drops the unit axis and the slice starts at (0, 0): entry k of the flattened row 0 is entry (0, k).
theorem row0_read (a1 : IVec S2x1600000 32) (hs : S2x1600000.Slices ![0, 0] S1x1600000) (hc : S1x1600000.ShapeCasts S1600000)
    (k : Fin 1600000) :
    shapeCast S1600000 (extractStridedSlice S1x1600000 ![0, 0] a1 hs) hc (ix1 k) = a1 (ix2 (0 : Fin 2) k) := by
  rw [shapeCast_1a_a_apply]
  refine extractStridedSlice_apply _ _ _ _ _ (fun a => ?_)
  match a with
  | ⟨0, _⟩ => rfl
  | ⟨1, _⟩ => show k.val = 0 + k.val; omega

-- The precondition's last conjunct is the "and" over all k of the two signed comparisons of entry (0, k) with -100000 and 100000.
theorem src_range (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S2x1600000.Idx) (hi : (i 0).val = 0) :
    (-100000 : Int) ≤ (m ((c.tc : Thread Cert.KernelIdeal.nD Cert.KernelIdeal.τ).loc Cert.KernelIdeal.main_arg1) i).toInt
    ∧ (m ((c.tc : Thread Cert.KernelIdeal.nD Cert.KernelIdeal.τ).loc Cert.KernelIdeal.main_arg1) i).toInt < 100000 := by
  obtain ⟨k, rfl⟩ : ∃ k : Fin 1600000, i = ix2 (0 : Fin 2) k :=
    ⟨i 1, funext fun a => by match a with | ⟨0, _⟩ => exact Fin.ext hi | ⟨1, _⟩ => rfl⟩
  have e := congrFun (h c) ix0
  unfold fn at e
  dsimp only at e
  unfold fn_part1 at e
  dsimp only at e
  unfold fn_part2 at e
  dsimp only at e
  obtain ⟨hge, hlt⟩ := IntOp.andi_eq_one.1 (Host.reduce_andi_all _ _ _ _ _ (IntOp.andi_eq_one.1 e).2 (ix1 k))
  have hge := IntOp.cmpi_sge.1 hge
  have hlt := IntOp.cmpi_slt.1 hlt
  rw [row0_read, broadcastInDim_scalar_apply] at hge hlt
  exact ⟨le_of_eq_of_le toInt_lo.symm hge, lt_of_lt_of_eq hlt toInt_hi⟩

-- A negative s is at least -100000, so s + 100000 does not wrap and lies in [0, 100000); a non-negative s is kept.
theorem wrap_in_range (s : BitVec 32) (h1 : (-100000 : Int) ≤ s.toInt) (h2 : s.toInt < 100000) :
    0 ≤ (Scalar.select (IntOp.cmpi .slt s 0#32) (IntOp.addi s 100000#32) s).toInt
    ∧ (Scalar.select (IntOp.cmpi .slt s 0#32) (IntOp.addi s 100000#32) s).toInt ≤ 99999 := by
  unfold Scalar.select IntOp.addi
  by_cases hb : IntOp.cmpi .slt s 0#32 = (1 : BitVec 1)
  · have hs := IntOp.cmpi_slt.1 hb
    rw [toInt_zero] at hs
    rw [if_pos hb, BitVec.toInt_add, toInt_hi, Int.bmod_eq_of_le_mul_two (by omega) (by omega)]
    omega
  · have hs := mt IntOp.cmpi_slt.2 hb
    rw [toInt_zero] at hs
    rw [if_neg hb]
    omega

end Cert.PreRange

end
-- ==== Proof.Val.MatLib.lean ====
import Idealize.ShloMosaic.Lib.Pipeline.Value
import Idealize.ShloMosaic.Lib.ValueIdx
import Idealize.ShloMosaic.Lib.KernelVsHost
import Idealize.ShloMosaic.Lib.StackMember

noncomputable section

namespace Cert.KernelIdeal.Val

open Idealize.ShloMosaic Idealize.ShloMosaic.ValueIdx

abbrev rowDot {n k m : Nat} (A : (⟨2, ![n, k]⟩ : Shape).Idx → Elt Ideal .f32) (W : (⟨2, ![k, m]⟩ : Shape).Idx → Elt Ideal .f32)
    (i : Fin n) (j : Fin m) : Elt Ideal .f32 :=
  ∑ c : Fin k, A (ix2 i c) * W (ix2 c j)

/-- The product of an n x k array and a k x m table, entry by entry. -/
abbrev prod {n k m : Nat} (A : (⟨2, ![n, k]⟩ : Shape).Idx → Elt Ideal .f32) (W : (⟨2, ![k, m]⟩ : Shape).Idx → Elt Ideal .f32) :
    (⟨2, ![n, m]⟩ : Shape).Idx → Elt Ideal .f32 :=
  fun y => rowDot A W (y 0) (y 1)

/-- A block product onto zero is a block of the whole product when the block's rows and columns sit in `A` and `W` where its entries sit in the product. -/
theorem matmul_block {R K C n m : Nat} {φ₁ φ₂ : FTy} (prec : Option ContractPrecision)
    (x0 : FVec Ideal ⟨2, ![R, K]⟩ φ₁) (x1 : FVec Ideal ⟨2, ![K, C]⟩ φ₂)
    (A : (⟨2, ![n, K]⟩ : Shape).Idx → Elt Ideal .f32) (W : (⟨2, ![K, m]⟩ : Shape).Idx → Elt Ideal .f32)
    (e : (⟨2, ![R, C]⟩ : Shape).Idx → (⟨2, ![n, m]⟩ : Shape).Idx)
    (h0 : ∀ p q k, x0 (ix2 p k) = A (ix2 (e (ix2 p q) 0) k)) (h1 : ∀ p q k, x1 (ix2 k q) = W (ix2 k (e (ix2 p q) 1)))
    (y : (⟨2, ![R, C]⟩ : Shape).Idx) :
    matmul (DotDims.plain R K C) prec x0 x1 (constant (F := Ideal) ⟨2, ![R, C]⟩ .f32 0x00000000#32) y = prod A W (e y) := by
  obtain ⟨p, q, rfl⟩ : ∃ p q, y = ix2 p q := ⟨y 0, y 1, eq_ix2 y⟩
  rw [matmul_zero_eq_dotGeneral, StackMember.dotGeneral_plain_apply]
  exact Finset.sum_congr rfl fun k _ => by rw [h0 p q k, h1 p q k]

/-- Row `r` of an array cut into blocks of `R` full-width rows lies in block `r / R`. -/
theorem mem_rowBlock {n m R : Nat} {ix sz xs : Fin 2 → Nat} {inb} (i : (⟨2, ![n, m]⟩ : Shape).Idx)
    (hix : ix = ![(i 0).val / R, 0]) (hsz : sz = ![R, m]) (hxs : xs = ![R, m]) (hR : 0 < R) :
    i ∈ (Rect.unit (s := ⟨2, ![n, m]⟩) (fun a => ix a * sz a) xs inb).set := by
  subst hix hsz hxs
  rw [Rect.mem_set_unit]
  intro a
  match a with
  | ⟨0, _⟩ => exact ⟨Nat.div_mul_le_self _ _, Nat.lt_div_mul_add hR⟩
  | ⟨1, _⟩ => exact ⟨by show 0 * m ≤ _; omega, by show (i 1).val < 0 * m + m; have := idx2_lt1 i; omega⟩

theorem off_zero : (![0, 0] : Fin 2 → Nat) = fun _ => 0 := funext fun a => by fin_cases a <;> rfl

end Cert.KernelIdeal.Val

end
-- ==== Proof.Val.MatVal.lean ====
import proofs.«417496_j30210799960814_2_alg».proof.Proof.KI.Reg0
import proofs.«417496_j30210799960814_2_alg».proof.Proof.Val.MatLib

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t = ![t.val, 0] :=
  (by decide +kernel : ∀ t : Fin grid0.N, _)

/-- The output block of grid point `t` is block `t` of the product of the two arrays held at the region's entry. -/
theorem flushed0_eq (c : Dev nD) (t : Fin cfg0.N) :
    (dat0 V c).flushed 2 t = ((cfg0.win 2).blk t).view.read (Elt Ideal) (prod (V c main_arg0) (V c main_v8)) := by
  show (cfg0.win 2).cut (grid0.coords t) ((dat0 V c).after 2 t) = _
  rw [after0_2]
  unfold out0_2 k0_pay1
  rw [View.canon_unit_zero off_zero]
  simp only [View.ld_unit_zero (S := S5000x128) off_zero, View.ld_unit_zero (S := S128x48) off_zero, shapeCast_self]
  obtain ⟨e0, e1, e2, e3, e4⟩ := idx_facts0 t
  have e5 : win0_2.index t (1 : Fin 2) = 0 := congrFun e4 1
  funext y
  refine matmul_block none _ _ (V c main_arg0) (V c main_v8) ((cfg0.win 2).blk t).view.emb (fun p q k => ?_) (fun p q k => ?_) y
  · exact congrArg (V c main_arg0) (Shape.idx_ext₂
      (by show win0_0.index t (0 : Fin 2) * 5000 + 1 * p.val = win0_2.index t (0 : Fin 2) * 5000 + 1 * p.val; omega)
      (by show win0_0.index t (1 : Fin 2) * 128 + 1 * k.val = k.val; omega))
  · exact congrArg (V c main_v8) (Shape.idx_ext₂
      (by show win0_1.index t (0 : Fin 2) * 128 + 1 * k.val = k.val; omega)
      (by show win0_1.index t (1 : Fin 2) * 48 + 1 * q.val = win0_2.index t (1 : Fin 2) * 48 + 1 * q.val; omega))

theorem cover0 (i : S100000x48.Idx) : ∃ t : Fin cfg0.N, (cfg0.win 2).flush t = true ∧ i ∈ ((cfg0.win 2).blk t).view.set := by
  have hi := idx2_lt0 i
  let t : Fin cfg0.N := ⟨(i 0).val / 5000, by show _ < 20; omega⟩
  refine ⟨t, flush0_2 t, ?_⟩
  show i ∈ ((View.whole main_v9).slice (win0_2.rect t)).set
  rw [View.set_slice_whole]
  exact mem_rowBlock i (idx_facts0 t).2.2.2.2 rfl rfl (by decide)

theorem mat0_val (c : Dev nD) (i : Fin 100000) (j : Fin 48) :
    (dat0 (F := Ideal) V c).arrAt 2 cfg0.N (ix2 i j) = rowDot (V c main_arg0) (V c main_v8) i j :=
  congrFun ((dat0 V c).arrAt_eq_of_cover 2 (prod (V c main_arg0) (V c main_v8)) (fun t _ => flushed0_eq V c t) cover0) (ix2 i j)

end Cert.KernelIdeal.Val

end
-- ==== Proof.Val.MatVal3.lean ====
import proofs.«417496_j30210799960814_2_alg».proof.Proof.KI.Reg3
import proofs.«417496_j30210799960814_2_alg».proof.Proof.Val.MatLib

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t = ![t.val, 0] :=
  (by decide +kernel : ∀ t : Fin grid3.N, _)

/-- The output block of grid point `t` is block `t` of the product of the two arrays held at the region's entry. -/
theorem flushed3_eq (c : Dev nD) (t : Fin cfg3.N) :
    (dat3 V c).flushed 2 t = ((cfg3.win 2).blk t).view.read (Elt Ideal) (prod (V c main_v25) (V c main_v30)) := by
  show (cfg3.win 2).cut (grid3.coords t) ((dat3 V c).after 2 t) = _
  rw [after3_2]
  unfold out3_2 k3_pay1
  rw [View.canon_unit_zero off_zero]
  simp only [View.ld_unit_zero (S := S5000x16) off_zero, View.ld_unit_zero (S := S16x30) off_zero, shapeCast_self]
  obtain ⟨e0, e1, e2, e3, e4⟩ := idx_facts3 t
  have e5 : win3_2.index t (1 : Fin 2) = 0 := congrFun e4 1
  funext y
  refine matmul_block none _ _ (V c main_v25) (V c main_v30) ((cfg3.win 2).blk t).view.emb (fun p q k => ?_) (fun p q k => ?_) y
  · exact congrArg (V c main_v25) (Shape.idx_ext₂
      (by show win3_0.index t (0 : Fin 2) * 5000 + 1 * p.val = win3_2.index t (0 : Fin 2) * 5000 + 1 * p.val; omega)
      (by show win3_0.index t (1 : Fin 2) * 16 + 1 * k.val = k.val; omega))
  · exact congrArg (V c main_v30) (Shape.idx_ext₂
      (by show win3_1.index t (0 : Fin 2) * 16 + 1 * k.val = k.val; omega)
      (by show win3_1.index t (1 : Fin 2) * 30 + 1 * q.val = win3_2.index t (1 : Fin 2) * 30 + 1 * q.val; omega))

theorem cover3 (i : S100000x30.Idx) : ∃ t : Fin cfg3.N, (cfg3.win 2).flush t = true ∧ i ∈ ((cfg3.win 2).blk t).view.set := by
  have hi := idx2_lt0 i
  let t : Fin cfg3.N := ⟨(i 0).val / 5000, by show _ < 20; omega⟩
  refine ⟨t, flush3_2 t, ?_⟩
  show i ∈ ((View.whole main_v31).slice (win3_2.rect t)).set
  rw [View.set_slice_whole]
  exact mem_rowBlock i (idx_facts3 t).2.2.2.2 rfl rfl (by decide)

theorem mat3_val (c : Dev nD) (i : Fin 100000) (j : Fin 30) :
    (dat3 (F := Ideal) V c).arrAt 2 cfg3.N (ix2 i j) = rowDot (V c main_v25) (V c main_v30) i j :=
  congrFun ((dat3 V c).arrAt_eq_of_cover 2 (prod (V c main_v25) (V c main_v30)) (fun t _ => flushed3_eq V c t) cover3) (ix2 i j)

end Cert.KernelIdeal.Val

end
-- ==== Proof.Val.MatBridge.lean ====
import proofs.«417496_j30210799960814_2_alg».proof.Proof.KI.Segs
import proofs.«417496_j30210799960814_2_alg».proof.Proof.Ref.Ops
import proofs.«417496_j30210799960814_2_alg».proof.Proof.Val.MatVal
import proofs.«417496_j30210799960814_2_alg».proof.Proof.Val.MatVal3
import Idealize.ShloMosaic.Lib.ValueLayout
import Idealize.ShloMosaic.Lib.StableHlo.Run

set_option maxRecDepth 16384

noncomputable section

namespace Cert.Bridge.Mat

open Idealize.ShloMosaic Idealize.ShloMosaic.TcCoe Idealize.SL.Sem Idealize.ShloMosaic.ValueIdx Idealize.ShloMosaic.StableHlo
open Cert.KernelIdeal.Frm Cert.KernelIdeal.Val Cert.ReferenceIdeal.RefRun

section General

/-- Three r x w tables, to be laid side by side along the columns. -/
abbrev side3 {α : Type} {r w : Nat} (x : Fin 3 → (⟨2, ![r, w]⟩ : Shape).Idx → α) : List ((s : Shape) × (s.Idx → α)) :=
  [⟨⟨2, ![r, w]⟩, x 0⟩, ⟨⟨2, ![r, w]⟩, x 1⟩, ⟨⟨2, ![r, w]⟩, x 2⟩]

/-- Three r x w tables side by side, read at column `b w + j`: table `b` at its own column `j`. -/
theorem concat3_col {α : Type} {r w W : Nat} (x : Fin 3 → (⟨2, ![r, w]⟩ : Shape).Idx → α)
    (h : Shape.Concatenates ((side3 x).map (·.1)) ⟨2, ![r, W]⟩ 1) (b : Fin 3) (k : Fin r) (j : Fin w) (hq : b.val * w + j.val < W) :
    concatenate ⟨2, ![r, W]⟩ 1 (side3 x) h (ix2 k ⟨b.val * w + j.val, hq⟩) = x b (ix2 k j) := by
  refine concatenate_apply_piece (t := ⟨2, ![r, W]⟩) (1 : Fin 2) (side3 x) h _ b.val b.isLt ⟨2, ![r, w]⟩ (x b) ?_ rfl (b.val * w) ?_ (ix2 k j) (fun a ha => ?_) rfl
  · fin_cases b <;> rfl
  · fin_cases b <;> simp <;> omega
  · match a with
    | ⟨0, _⟩ => rfl
    | ⟨1, _⟩ => exact absurd rfl ha

variable {nD : Nat} {τ : Topo} {sig : RefSig} {Val : EltTy → Type}

theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The plain product of an n x k array and a k x w table. -/
abbrev hdot {n k w : Nat} (A : (⟨2, ![n, k]⟩ : Shape).Idx → Elt Ideal .f32) (T : (⟨2, ![k, w]⟩ : Shape).Idx → Elt Ideal .f32) :=
  Host.dotGeneral (F := Ideal) (φ₁ := .f32) (φ₂ := .f32) (DotDims.plain n k w) none A T

/-- Column band `b` of the rows against three tables side by side is the rows against table `b`: column `b w + j` of the wide table is column `j` of table `b`. -/
theorem band_dot {n k w W : Nat} (A : (⟨2, ![n, k]⟩ : Shape).Idx → Elt Ideal .f32) (x : Fin 3 → (⟨2, ![k, w]⟩ : Shape).Idx → Elt Ideal .f32)
    (h : Shape.Concatenates ((side3 x).map (·.1)) ⟨2, ![k, W]⟩ 1) (P : (⟨2, ![n, W]⟩ : Shape).Idx → Elt Ideal .f32)
    (hP : ∀ i q, P (ix2 i q) = rowDot A (concatenate ⟨2, ![k, W]⟩ 1 (side3 x) h) i q)
    (b : Fin 3) (o : Nat) (ho : b.val * w = o) (hs : (⟨2, ![n, W]⟩ : Shape).Slices ![0, o] ⟨2, ![n, w]⟩)
    {Y} (hY : Y = extractStridedSlice ⟨2, ![n, w]⟩ ![0, o] P hs) : Y = hdot A (x b) := by
  subst ho hY
  funext y
  obtain ⟨i, j, rfl⟩ : ∃ i j, y = ix2 i j := ⟨y 0, y 1, eq_ix2 y⟩
  rw [slice2_axis1_eq, hP]
  refine Eq.trans ?_ (StackMember.dotGeneral_plain_apply none A (x b) i j).symm
  exact Finset.sum_congr rfl fun c _ => by rw [concat3_col x h b c j]

end General

local macro "after_results3" : tactic =>
  `(tactic| (simp only [after_cons, after_nil]
             repeat (first
               | rw [nary3_result] | rw [unary_result] | rw [reshape_result]
               | (rw [unary_result_ne]; rotate_left; decide)
               | (rw [reshape_result_ne]; rotate_left; decide)
               | (rw [nary_result_ne]; rotate_left; decide))))

section KernelSide
open Cert.KernelIdeal Cert.KernelIdeal.Gen

def w1half0 (w : S2x128x16.Idx → Elt Ideal .f32) : S128x16.Idx → Elt Ideal .f32 :=
  shapeCast S128x16 (extractStridedSlice S1x128x16 ![0, 0, 0] w slices_S2x128x16_S1x128x16_0_0_0) shapeCasts_S1x128x16_S128x16
def w1half1 (w : S2x128x16.Idx → Elt Ideal .f32) : S128x16.Idx → Elt Ideal .f32 :=
  shapeCast S128x16 (extractStridedSlice S1x128x16 ![1, 0, 0] w slices_S2x128x16_S1x128x16_1_0_0) shapeCasts_S1x128x16_S128x16
def w2half0 (w : S2x16x10.Idx → Elt Ideal .f32) : S16x10.Idx → Elt Ideal .f32 :=
  shapeCast S16x10 (extractStridedSlice S1x16x10 ![0, 0, 0] w slices_S2x16x10_S1x16x10_0_0_0) shapeCasts_S1x16x10_S16x10
def w2half1 (w : S2x16x10.Idx → Elt Ideal .f32) : S16x10.Idx → Elt Ideal .f32 :=
  shapeCast S16x10 (extractStridedSlice S1x16x10 ![1, 0, 0] w slices_S2x16x10_S1x16x10_1_0_0) shapeCasts_S1x16x10_S16x10

/-- The two halves of a layer's stacked weights and its root table, in the order they lie side by side. -/
abbrev tabs1 (w : S2x128x16.Idx → Elt Ideal .f32) (r : S128x16.Idx → Elt Ideal .f32) : Fin 3 → S128x16.Idx → Elt Ideal .f32 :=
  ![w1half0 w, w1half1 w, r]
abbrev tabs2 (w : S2x16x10.Idx → Elt Ideal .f32) (r : S16x10.Idx → Elt Ideal .f32) : Fin 3 → S16x10.Idx → Elt Ideal .f32 :=
  ![w2half0 w, w2half1 w, r]

theorem hostOps0_v8 (F : Valuation τ sig (Elt Ideal)) :
    after hostOps0 F main_v8
      = concatenate S128x48 1 (side3 (tabs1 (F main_arg3) (F main_arg4))) concatenates_S128x16_S128x16_S128x16_S128x48_d1 := by
  after_results3
  rfl
theorem hostOps3_v30 (F : Valuation τ sig (Elt Ideal)) :
    after hostOps3 F main_v30
      = concatenate S16x30 1 (side3 (tabs2 (F main_arg6) (F main_arg7))) concatenates_S16x10_S16x10_S16x10_S16x30_d1 := by
  after_results3
  rfl

variable (m : (ℓ : Loc nD τ sig) → Buf (Elt Ideal) ℓ)

/-- The three bands of the first layer's product: the features against each table. -/
theorem kbands1 (c : Dev nD) :
    Y3 m c main_v10 = hdot (Y0 m c main_arg0) (w1half0 (Y0 m c main_arg3))
    ∧ Y3 m c main_v11 = hdot (Y0 m c main_arg0) (w1half1 (Y0 m c main_arg3))
    ∧ Y3 m c main_v12 = hdot (Y0 m c main_arg0) (Y0 m c main_arg4) := by
  have e0 : T1 m c main_arg0 = Y0 m c main_arg0 := Y1_of m c main_arg0 (by decide)
  have e8 : T1 m c main_v8 = _ := hostOps0_v8 (Y0 m c)
  have B := band_dot _ (tabs1 (Y0 m c main_arg3) (Y0 m c main_arg4)) _ (Y2 m c main_v9) fun i q =>
    (congrFun (Y2_out m c) (ix2 i q)).trans ((mat0_val (T1 m) c i q).trans (by rw [e0, e8]))
  exact ⟨B 0 0 rfl _ (by after_results), B 1 16 rfl _ (by after_results), B 2 32 rfl _ (by after_results)⟩

theorem Y8_launch (c : Dev nD) : Y8 m c main_arg6 = Y0 m c main_arg6 ∧ Y8 m c main_arg7 = Y0 m c main_arg7 := by
  constructor <;> exact (Y8_of m c _ (by decide)).trans <| (Y7_of m c _ (by decide)).trans <| (Y6_of m c _ (by decide)).trans <|
    (Y5_of m c _ (by decide)).trans <| (Y4_of m c _ (by decide)).trans <| (Y3_of m c _ (by decide)).trans <|
    (Y2_of m c _ (by decide)).trans <| Y1_of m c _ (by decide)

/-- The three bands of the second layer's product: the hidden rows against each table. -/
theorem kbands2 (c : Dev nD) :
    Y11 m c main_v32 = hdot (Y8 m c main_v25) (w2half0 (Y0 m c main_arg6))
    ∧ Y11 m c main_v33 = hdot (Y8 m c main_v25) (w2half1 (Y0 m c main_arg6))
    ∧ Y11 m c main_v34 = hdot (Y8 m c main_v25) (Y0 m c main_arg7) := by
  have e25 : T9 m c main_v25 = Y8 m c main_v25 := Y9_of m c main_v25 (by decide)
  have e30 : T9 m c main_v30 = _ := hostOps3_v30 (Y8 m c)
  have B := band_dot _ (tabs2 (Y0 m c main_arg6) (Y0 m c main_arg7)) _ (Y10 m c main_v31) fun i q =>
    (congrFun (Y10_out m c) (ix2 i q)).trans ((mat3_val (T9 m) c i q).trans (by
      rw [e25, e30, (Y8_launch m c).1, (Y8_launch m c).2]))
  exact ⟨B 0 0 rfl _ (by after_results), B 1 10 rfl _ (by after_results), B 2 20 rfl _ (by after_results)⟩

end KernelSide

section RefSide
open Cert.ReferenceIdeal Cert.ReferenceIdeal.Gen

theorem ops0_v6 (F : Valuation τ sig (Elt Ideal)) :
    after ops0 F main_v6 = hdot (F main_arg0) (w1half0 (F main_arg3))
    ∧ after ops0 F main_v9 = hdot (F main_arg0) (w1half1 (F main_arg3)) := by
  refine ⟨?_, ?_⟩ <;> after_results <;> rfl
theorem ops3_v46 (F : Valuation τ sig (Elt Ideal)) :
    after ops3 F main_v46 = hdot (F main_arg0) (F main_arg4) := by
  after_results
  rfl
theorem ops5_v54 (F : Valuation τ sig (Elt Ideal)) :
    after ops5 F main_v54 = hdot (F main_v51) (w2half0 (F main_arg6))
    ∧ after ops5 F main_v57 = hdot (F main_v51) (w2half1 (F main_arg6)) := by
  refine ⟨?_, ?_⟩ <;> after_results <;> rfl
theorem ops8_v94 (F : Valuation τ sig (Elt Ideal)) :
    after ops8 F main_v94 = hdot (F main_v51) (F main_arg7) := by
  after_results
  rfl

variable (m' : (ℓ : Loc nD τ sig) → Buf (Elt Ideal) ℓ)

theorem RV_launch (c : Dev nD) (r : Ref sig .tc) (h : r ∉ ops0_W ∧ r ∉ ops1_W ∧ r ∉ ops2_W ∧ r ∉ ops3_W ∧ r ∉ ops4_W ∧ r ∉ ops5_W ∧ r ∉ ops6_W ∧ r ∉ ops7_W) :
    RV2 m' c r = m' ((c : Thread nD τ).loc r) ∧ RV4 m' c r = m' ((c : Thread nD τ).loc r) ∧ RV7 m' c r = m' ((c : Thread nD τ).loc r) := by
  obtain ⟨n0, n1, n2, n3, n4, n5, n6, n7⟩ := h
  have e2 : RV2 m' c r = _ := (after_of_writes_sub ops2 _ ops2_writes n2).trans <|
    (after_of_writes_sub ops1 _ ops1_writes n1).trans <| after_of_writes_sub ops0 _ ops0_writes n0
  have e4 : RV4 m' c r = _ := (after_of_writes_sub ops4 _ ops4_writes n4).trans <|
    (after_of_writes_sub ops3 _ ops3_writes n3).trans e2
  exact ⟨e2, e4, (after_of_writes_sub ops7 _ ops7_writes n7).trans <|
    (after_of_writes_sub ops6 _ ops6_writes n6).trans <| (after_of_writes_sub ops5 _ ops5_writes n5).trans e4⟩

theorem rbands1 (c : Dev nD) :
    RV0 m' c main_v6 = hdot (m' ((c : Thread nD τ).loc main_arg0)) (w1half0 (m' ((c : Thread nD τ).loc main_arg3)))
    ∧ RV0 m' c main_v9 = hdot (m' ((c : Thread nD τ).loc main_arg0)) (w1half1 (m' ((c : Thread nD τ).loc main_arg3)))
    ∧ RV3 m' c main_v46 = hdot (m' ((c : Thread nD τ).loc main_arg0)) (m' ((c : Thread nD τ).loc main_arg4)) := by
  refine ⟨(ops0_v6 _).1, (ops0_v6 _).2, (ops3_v46 (RV2 m' c)).trans ?_⟩
  rw [(RV_launch m' c main_arg0 (by decide)).1, (RV_launch m' c main_arg4 (by decide)).1]

theorem rbands2 (c : Dev nD) :
    RV5 m' c main_v54 = hdot (RV4 m' c main_v51) (w2half0 (m' ((c : Thread nD τ).loc main_arg6)))
    ∧ RV5 m' c main_v57 = hdot (RV4 m' c main_v51) (w2half1 (m' ((c : Thread nD τ).loc main_arg6)))
    ∧ RV8 m' c main_v94 = hdot (RV4 m' c main_v51) (m' ((c : Thread nD τ).loc main_arg7)) := by
  have e51 : RV7 m' c main_v51 = RV4 m' c main_v51 := (after_of_writes_sub ops7 _ ops7_writes (by decide)).trans <|
    (after_of_writes_sub ops6 _ ops6_writes (by decide)).trans <| after_of_writes_sub ops5 _ ops5_writes (by decide)
  refine ⟨(ops5_v54 (RV4 m' c)).1.trans ?_, (ops5_v54 (RV4 m' c)).2.trans ?_, (ops8_v94 (RV7 m' c)).trans ?_⟩
  · rw [(RV_launch m' c main_arg6 (by decide)).2.1]
  · rw [(RV_launch m' c main_arg6 (by decide)).2.1]
  · rw [e51, (RV_launch m' c main_arg7 (by decide)).2.2]

end RefSide

end Cert.Bridge.Mat

namespace Cert.Bridge

open Idealize.ShloMosaic Idealize.ShloMosaic.TcCoe Idealize.SL.Sem Idealize.ShloMosaic.ValueIdx
open Cert.KernelIdeal.Frm Cert.ReferenceIdeal.RefRun Cert.Bridge.Mat

theorem mat1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Y3 m c Cert.KernelIdeal.main_v10 = RV0 m' c Cert.ReferenceIdeal.main_v6
    ∧ Y3 m c Cert.KernelIdeal.main_v11 = RV0 m' c Cert.ReferenceIdeal.main_v9
    ∧ Y3 m c Cert.KernelIdeal.main_v12 = RV3 m' c Cert.ReferenceIdeal.main_v46 := by
  obtain ⟨h0, -, -, h3, h4, -⟩ := hagree c
  obtain ⟨k0, k1, k2⟩ := kbands1 m c
  obtain ⟨r0, r1, r2⟩ := rbands1 m' c
  rw [k0, k1, k2, r0, r1, r2, h0, h3, h4]
  exact ⟨rfl, rfl, rfl⟩

theorem mat2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h25 : Y8 m c Cert.KernelIdeal.main_v25 = RV4 m' c Cert.ReferenceIdeal.main_v51) :
    Y11 m c Cert.KernelIdeal.main_v32 = RV5 m' c Cert.ReferenceIdeal.main_v54
    ∧ Y11 m c Cert.KernelIdeal.main_v33 = RV5 m' c Cert.ReferenceIdeal.main_v57
    ∧ Y11 m c Cert.KernelIdeal.main_v34 = RV8 m' c Cert.ReferenceIdeal.main_v94 := by
  obtain ⟨-, -, -, -, -, -, h6, h7, -⟩ := hagree c
  obtain ⟨k0, k1, k2⟩ := kbands2 m c
  obtain ⟨r0, r1, r2⟩ := rbands2 m' c
  rw [k0, k1, k2, r0, r1, r2, h25, h6, h7]
  exact ⟨rfl, rfl, rfl⟩

end Cert.Bridge

end
-- ==== Proof.Val.BlendRows.lean ====
import proofs.«417496_j30210799960814_2_alg».proof.Proof.Val.MatLib
import Idealize.ShloMosaic.Lib.IdealHost

noncomputable section

namespace Cert.KernelIdeal.Val

open Idealize.ShloMosaic Idealize.ShloMosaic.ValueIdx

variable {F : FTy → Type} [FloatOps F] {α : Type} {R C : Nat}

def blendRows (u : Vec F ⟨2, ![R, 1]⟩ .f32) (a b : Vec F ⟨2, ![R, C]⟩ .f32) : Vec F ⟨2, ![R, C]⟩ .f32 := fun i =>
  FloatOps.addf (FloatOps.mulf (FloatOps.subf (Scalar.ofBits .f32 0x3F800000#32) (u (ix2 (i 0) 0))) (a i))
    (FloatOps.mulf (u (ix2 (i 0) 0)) (b i))

/-- Reading the tables through maps that agree on rows commutes with the blend. -/
theorem blendRows_comp {R' C' : Nat} (f : (⟨2, ![R', C']⟩ : Shape).Idx → (⟨2, ![R, C]⟩ : Shape).Idx)
    (g : (⟨2, ![R', 1]⟩ : Shape).Idx → (⟨2, ![R, 1]⟩ : Shape).Idx) (hg : ∀ j, g (ix2 (j 0) 0) = ix2 (f j 0) 0)
    (u : Vec F ⟨2, ![R, 1]⟩ .f32) (a b : Vec F ⟨2, ![R, C]⟩ .f32) :
    blendRows (fun i => u (g i)) (fun i => a (f i)) (fun i => b (f i)) = fun i => blendRows u a b (f i) :=
  funext fun j => by
    show FloatOps.addf (FloatOps.mulf (FloatOps.subf _ (u (g (ix2 (j 0) 0)))) _) (FloatOps.mulf (u (g (ix2 (j 0) 0))) _) = _
    rw [hg]
    rfl

/-- A column spread over C columns reads, at (r, j), the column's entry of row r. -/
theorem spread_col (x : (⟨2, ![R, 1]⟩ : Shape).Idx → α) (h : (⟨2, ![R, 1]⟩ : Shape).Broadcasts ⟨2, ![R, C]⟩)
    (j : (⟨2, ![R, C]⟩ : Shape).Idx) : broadcastTo ⟨2, ![R, C]⟩ x h j = x (ix2 (j 0) 0) :=
  broadcastTo_apply x h j _ fun a => by
    match a with
    | ⟨0, _⟩ => show (j 0).val = if R = 1 then 0 else (j 0).val; have := idx2_lt0 j; split <;> omega
    | ⟨1, _⟩ => rfl

/-- The blend as a kernel body writes it on whole blocks. -/
theorem blend_pay (u : Vec F ⟨2, ![R, 1]⟩ .f32) (a b : Vec F ⟨2, ![R, C]⟩ .f32) (hb : (⟨2, ![R, 1]⟩ : Shape).Broadcasts ⟨2, ![R, C]⟩)
    (hc : (⟨2, ![R, C]⟩ : Shape).ShapeCasts ⟨2, ![R, C]⟩) :
    addf (mulf (broadcastTo ⟨2, ![R, C]⟩ (subf (broadcast ⟨2, ![R, 1]⟩ (Scalar.ofBits .f32 0x3F800000#32)) u) hb) (shapeCast ⟨2, ![R, C]⟩ a hc))
      (mulf (broadcastTo ⟨2, ![R, C]⟩ u hb) (shapeCast ⟨2, ![R, C]⟩ b hc)) = blendRows u a b := by
  funext j
  simp only [addf, mulf, shapeCast_self, spread_col]
  rfl

/-- The same for the column spread of the reference program. -/
theorem col_spread (w : (⟨2, ![R, 1]⟩ : Shape).Idx → α) (h : (⟨2, ![R, 1]⟩ : Shape).BroadcastsInDim ⟨2, ![R, C]⟩ ![0, 1]) (r : Fin R) (j : Fin C) :
    broadcastInDim ⟨2, ![R, C]⟩ ![0, 1] h w (ix2 r j) = w (ix2 r 0) :=
  broadcastInDim_apply _ h w _ _ fun a => by
    match a with
    | ⟨0, _⟩ => show r.val = if R = 1 then 0 else r.val; split <;> omega
    | ⟨1, _⟩ => rfl

theorem vec_col (v : (⟨1, ![R]⟩ : Shape).Idx → α) (h : (⟨1, ![R]⟩ : Shape).BroadcastsInDim ⟨2, ![R, 1]⟩ ![0]) (r : Fin R) :
    broadcastInDim ⟨2, ![R, 1]⟩ ![0] h v (ix2 r 0) = v (ix1 r) :=
  broadcastInDim_apply _ h v _ _ fun a => by
    match a with
    | ⟨0, _⟩ => show r.val = if R = 1 then 0 else r.val; split <;> omega

theorem col_flat (u : (⟨2, ![R, 1]⟩ : Shape).Idx → α) (h : (⟨2, ![R, 1]⟩ : Shape).ShapeCasts ⟨1, ![R]⟩) (r : Fin R) :
    shapeCast ⟨1, ![R]⟩ u h (ix1 r) = u (ix2 r 0) :=
  shapeCast_apply u h _ _ (by
    rw [Shape.rowMajor_val_two, Shape.rowMajor_val_one]
    show r.val * 1 + 0 = r.val
    omega)

/-- The blend as host operations write it. -/
theorem blend_host (u : Vec F ⟨2, ![R, 1]⟩ .f32) (a b : Vec F ⟨2, ![R, C]⟩ .f32)
    (h2 : (⟨2, ![R, 1]⟩ : Shape).BroadcastsInDim ⟨2, ![R, C]⟩ ![0, 1]) (h1 : (⟨1, ![R]⟩ : Shape).BroadcastsInDim ⟨2, ![R, 1]⟩ ![0])
    (h0 : (⟨0, ![]⟩ : Shape).BroadcastsInDim ⟨1, ![R]⟩ ![]) (hc : (⟨2, ![R, 1]⟩ : Shape).ShapeCasts ⟨1, ![R]⟩) :
    addf (mulf (broadcastInDim ⟨2, ![R, C]⟩ ![0, 1] h2 (broadcastInDim ⟨2, ![R, 1]⟩ ![0] h1
          (subf (broadcastInDim ⟨1, ![R]⟩ ![] h0 (constant (F := F) ⟨0, ![]⟩ .f32 0x3F800000#32)) (shapeCast ⟨1, ![R]⟩ u hc)))) a)
      (mulf (broadcastInDim ⟨2, ![R, C]⟩ ![0, 1] h2 (broadcastInDim ⟨2, ![R, 1]⟩ ![0] h1 (shapeCast ⟨1, ![R]⟩ u hc))) b)
      = blendRows u a b := by
  funext i
  obtain ⟨r, j, rfl⟩ : ∃ (r : Fin R) (j : Fin C), i = ix2 r j := ⟨i 0, i 1, eq_ix2 i⟩
  show FloatOps.addf (FloatOps.mulf (broadcastInDim _ _ h2 _ (ix2 r j)) _) (FloatOps.mulf (broadcastInDim _ _ h2 _ (ix2 r j)) _) = _
  rw [col_spread, col_spread, vec_col, vec_col]
  show FloatOps.addf (FloatOps.mulf (FloatOps.subf (broadcastInDim _ _ h0 _ (ix1 r)) (shapeCast _ u hc (ix1 r))) _)
    (FloatOps.mulf (shapeCast _ u hc (ix1 r)) _) = _
  rw [col_flat, broadcastInDim_scalar_apply]
  rfl

end Cert.KernelIdeal.Val

end
-- ==== Proof.Val.BlendVal.lean ====
import proofs.«417496_j30210799960814_2_alg».proof.Proof.KI.Reg1
import proofs.«417496_j30210799960814_2_alg».proof.Proof.Val.BlendRows
import proofs.«417496_j30210799960814_2_alg».proof.Proof.Val.MatLib

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

theorem block_index1 : ∀ t : Fin cfg1.N, win1_3.index t = ![t.val, 0] :=
  (by decide +kernel : ∀ t : Fin grid1.N, _)

/-- Row r of the weight block is row r of the output block. -/
theorem emb1_2 (t : Fin cfg1.N) (j : S4000x16.Idx) :
    ((cfg1.win 2).blk t).view.emb (ix2 (j 0) (0 : Fin 1)) = ix2 ((((cfg1.win 3).blk t).view.emb j) 0) (0 : Fin 1) :=
  funext fun a => match a with | ⟨0, _⟩ => rfl | ⟨1, _⟩ => rfl

theorem flushed1_eq (c : Dev nD) (t : Fin cfg1.N) :
    (dat1 V c).flushed 3 t = ((cfg1.win 3).blk t).view.read (Elt F) (blendRows (V c main_arg2) (V c main_v13) (V c main_v14)) := by
  show (cfg1.win 3).cut (grid1.coords t) ((dat1 V c).after 3 t) = _
  rw [after1_3]
  unfold out1_3
  rw [View.canon_unit_zero off_zero]
  simp only [View.ld_unit_zero (S := S4000x16) off_zero, View.ld_unit_zero (S := S4000x1) off_zero]
  exact (blend_pay _ _ _ _ _).trans (blendRows_comp _ _ (emb1_2 t) (V c main_arg2) (V c main_v13) (V c main_v14))

theorem cover1 (i : S1600000x16.Idx) : ∃ t : Fin cfg1.N, (cfg1.win 3).flush t = true ∧ i ∈ ((cfg1.win 3).blk t).view.set := by
  have h : (i 0).val / 4000 < 400 := by have := idx2_lt0 i; omega
  refine ⟨⟨_, h⟩, flush1_3 _, ?_⟩
  show i ∈ ((View.whole main_v15).slice (win1_3.rect ⟨_, h⟩)).set
  rw [View.set_slice_whole]
  exact mem_rowBlock i (block_index1 ⟨_, h⟩) rfl rfl (by decide)

theorem blend1_array (c : Dev nD) :
    (dat1 V c).arrAt 3 cfg1.N = blendRows (V c main_arg2) (V c main_v13) (V c main_v14) :=
  (dat1 V c).arrAt_eq_of_cover 3 _ (fun t _ => flushed1_eq V c t) cover1

end Cert.KernelIdeal.Val

end
-- ==== Proof.Val.TakeDefs.lean ====
import proofs.«417496_j30210799960814_2_alg».proof.Proof.Gen.KernelIdeal
import proofs.«417496_j30210799960814_2_alg».proof.Proof.PreRange
import Idealize.ShloMosaic.Lib.StableHlo.Run
import Idealize.ShloMosaic.Lib.Pipeline.Value
import Idealize.ShloMosaic.Lib.ValueIdx
import Idealize.ShloMosaic.Lib.ValueLayout
import Idealize.ShloMosaic.Lib.ReduceAll
import Idealize.ShloMosaic.Lib.IdealHost

set_option maxRecDepth 16384

noncomputable section

namespace Cert.Bridge

open Idealize.ShloMosaic Idealize.ShloMosaic.TcCoe Idealize.ShloMosaic.ValueIdx Idealize.SL.Sem

variable {F : FTy → Type} [FloatOps F]

section TakeDefs
open Cert.KernelIdeal Cert.KernelIdeal.Gen

def wrapCol (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

def colInRange (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

def takeFill {C : Nat} (D : GatherDims ⟨2, ![100000, C]⟩ S1600000x1 ⟨2, ![1600000, C]⟩)
    (hm : S1600000.BroadcastsInDim ⟨2, ![1600000, C]⟩ (![0] : Fin 1 → Fin 2))
    (hf : S_.BroadcastsInDim ⟨2, ![1600000, C]⟩ (![] : Fin 0 → Fin 2))
    (X : Vec F ⟨2, ![100000, C]⟩ .f32) (src : IVec S1600000 32) : Vec F ⟨2, ![1600000, C]⟩ .f32 :=
  select (broadcastInDim ⟨2, ![1600000, C]⟩ ![0] hm (colInRange (wrapCol src))) (Host.gather D X (wrapCol src))
    (broadcastInDim ⟨2, ![1600000, C]⟩ ![] hf (constant (F := F) S_ .f32 0x7FC00000#32))

end TakeDefs

section Range
open Cert.KernelIdeal Cert.KernelIdeal.Gen

theorem toInt_top : (99999#32 : BitVec 32).toInt = 99999 := by decide

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, (by decide : IntOp.andi 1#1 1#1 = 1#1)]
    exact foldl_andi_ones f hf l

theorem reduce_andi_ones {s t : Shape} {axes : List (Fin s.rank)} (x : s.Idx → BitVec 1) (h : s.ReducesTo axes t)
    (hx : ∀ i, x i = 1#1) (j : t.Idx) : Host.reduce IntOp.andi x (constantI S_ 1 1#1) h h_S_ j = 1#1 := by
  rw [Host.reduce_eq_foldl]
  exact foldl_andi_ones x hx _

theorem wrapCol_apply (src : IVec S1600000 32) (i : S1600000x1.Idx) :
    wrapCol src i = Scalar.select (IntOp.cmpi .slt (src (ix1 (i 0))) 0#32) (IntOp.addi (src (ix1 (i 0))) 100000#32) (src (ix1 (i 0))) := by
  unfold wrapCol
  rw [broadcastInDim_apply _ bcast_S1600000_S1600000x1_0 _ i (ix1 (i 0)) (fun a => by match a with | ⟨0, _⟩ => rfl)]
  rfl

theorem colInRange_wrap (src : IVec S1600000 32)
    (h : ∀ k : Fin 1600000, (-100000 : Int) ≤ (src (ix1 k)).toInt ∧ (src (ix1 k)).toInt < 100000) (k : S1600000.Idx) :
    colInRange (wrapCol src) k = 1#1 := by
  unfold colInRange
  refine reduce_andi_ones _ _ (fun i => ?_) k
  obtain ⟨h0, h1⟩ := Cert.PreRange.wrap_in_range (src (ix1 (i 0))) (h (i 0)).1 (h (i 0)).2
  rw [← wrapCol_apply src i] at h0 h1
  exact IntOp.andi_eq_one.2 ⟨IntOp.cmpi_sge.2 (Cert.PreRange.toInt_zero.trans_le h0), IntOp.cmpi_sle.2 (h1.trans_eq toInt_top.symm)⟩

theorem takeFill_eq_gather {C : Nat} (D : GatherDims ⟨2, ![100000, C]⟩ S1600000x1 ⟨2, ![1600000, C]⟩)
    (hm : S1600000.BroadcastsInDim ⟨2, ![1600000, C]⟩ (![0] : Fin 1 → Fin 2))
    (hf : S_.BroadcastsInDim ⟨2, ![1600000, C]⟩ (![] : Fin 0 → Fin 2))
    (X : Vec F ⟨2, ![100000, C]⟩ .f32) (src : IVec S1600000 32)
    (h : ∀ k : Fin 1600000, (-100000 : Int) ≤ (src (ix1 k)).toInt ∧ (src (ix1 k)).toInt < 100000) :
    takeFill D hm hf X src = Host.gather D X (wrapCol src) := by
  funext i
  unfold takeFill
  rw [select_apply, broadcastInDim_apply _ hm _ i (ix1 (i 0)) (fun a => by match a with | ⟨0, _⟩ => rfl),
    colInRange_wrap src h, select_one]

def srcRow (a1 : IVec S2x1600000 32) : IVec S1600000 32 :=
  shapeCast S1600000 (extractStridedSlice S1x1600000 ![0, 0] a1 slices_S2x1600000_S1x1600000_0_0) shapeCasts_S1x1600000_S1600000

theorem srcRow_range (a1 : IVec S2x1600000 32)
    (hr : ∀ i : S2x1600000.Idx, (i 0).val = 0 → (-100000 : Int) ≤ (a1 i).toInt ∧ (a1 i).toInt < 100000) (k : Fin 1600000) :
    (-100000 : Int) ≤ (srcRow a1 (ix1 k)).toInt ∧ (srcRow a1 (ix1 k)).toInt < 100000 := by
  unfold srcRow
  rw [Cert.PreRange.row0_read]
  exact hr _ rfl

end Range

end Cert.Bridge

end
-- ==== Proof.Val.BlendWalk.lean ====
import proofs.«417496_j30210799960814_2_alg».proof.Proof.KI.Segs
import proofs.«417496_j30210799960814_2_alg».proof.Proof.Ref.Ops
import proofs.«417496_j30210799960814_2_alg».proof.Proof.Val.TakeDefs

noncomputable section

namespace Cert.Bridge

open Idealize.ShloMosaic Idealize.ShloMosaic.TcCoe Idealize.ShloMosaic.ValueIdx Idealize.SL.Sem

variable {F : FTy → Type} [FloatOps F]

section KernelWalk
open Cert.KernelIdeal Cert.KernelIdeal.Gen Cert.KernelIdeal.Frm

variable (m : (ℓ : Loc nD τ sig) → Buf (Elt F) ℓ)

theorem ker_src1 (c : Dev nD) : Y1 m c main_v1 = srcRow (m ((c.tc : Thread nD τ).loc main_arg1)) := by
  after_results
  rfl

theorem ker_src3 (c : Dev nD) : Y3 m c main_v1 = srcRow (m ((c.tc : Thread nD τ).loc main_arg1)) := by
  rw [Y3_of, Y2_of, ker_src1] <;> decide

theorem ker_src11 (c : Dev nD) : Y11 m c main_v1 = srcRow (m ((c.tc : Thread nD τ).loc main_arg1)) := by
  rw [Y11_of, Y10_of, Y9_of, Y8_of, Y7_of, Y6_of, Y5_of, Y4_of, ker_src3] <;> decide

/-- The weight column reaches both blend regions as launched. -/
theorem ker_wts5 (c : Dev nD) : Y5 m c main_arg2 = m ((c.tc : Thread nD τ).loc main_arg2) := by
  rw [Y5_of, Y4_of, Y3_of, Y2_of, Y1_of] <;> decide

theorem ker_wts13 (c : Dev nD) : Y13 m c main_arg2 = m ((c.tc : Thread nD τ).loc main_arg2) := by
  rw [Y13_of, Y12_of, Y11_of, Y10_of, Y9_of, Y8_of, Y7_of, Y6_of, ker_wts5] <;> decide

end KernelWalk

section RefWalk
open Cert.ReferenceIdeal Cert.ReferenceIdeal.Gen Cert.ReferenceIdeal.RefRun

variable (m' : (ℓ : Loc nD τ sig) → Buf (Elt F) ℓ)

/-- The reference's first stretch leaves row 0 of the edge table too. -/
theorem ref_src0 (c : Dev nD) : RV0 m' c (Proc.devRef .tc main_v1) = srcRow (m' ((c.tc : Thread nD τ).loc main_arg1)) := by
  after_results
  rfl

theorem ref_wts0 (c : Dev nD) : RV0 m' c (Proc.devRef .tc main_arg2) = m' ((c.tc : Thread nD τ).loc main_arg2) :=
  StableHlo.after_of_writes_sub ops0 _ ops0_writes (by decide)

/-- What the five stretches after the first do not write is unchanged. -/
theorem ref_keep5 (c : Dev nD) (r : Ref sig .tc) (h1 : r ∉ ops1_W) (h2 : r ∉ ops2_W) (h3 : r ∉ ops3_W) (h4 : r ∉ ops4_W) (h5 : r ∉ ops5_W) :
    RV5 m' c (Proc.devRef .tc r) = RV0 m' c (Proc.devRef .tc r) :=
  (StableHlo.after_of_writes_sub ops5 _ ops5_writes h5).trans <| (StableHlo.after_of_writes_sub ops4 _ ops4_writes h4).trans <|
    (StableHlo.after_of_writes_sub ops3 _ ops3_writes h3).trans <| (StableHlo.after_of_writes_sub ops2 _ ops2_writes h2).trans <|
    StableHlo.after_of_writes_sub ops1 _ ops1_writes h1

theorem ref_src5 (c : Dev nD) : RV5 m' c (Proc.devRef .tc main_v1) = srcRow (m' ((c.tc : Thread nD τ).loc main_arg1)) :=
  (ref_keep5 m' c _ (by decide) (by decide) (by decide) (by decide) (by decide)).trans (ref_src0 m' c)

theorem ref_wts5 (c : Dev nD) : RV5 m' c (Proc.devRef .tc main_arg2) = m' ((c.tc : Thread nD τ).loc main_arg2) :=
  (ref_keep5 m' c _ (by decide) (by decide) (by decide) (by decide) (by decide)).trans (ref_wts0 m' c)

end RefWalk

end Cert.Bridge

end
-- ==== Proof.Val.TakeA.lean ====
import proofs.«417496_j30210799960814_2_alg».proof.Proof.Gen.KernelIdeal.Launch
import proofs.«417496_j30210799960814_2_alg».proof.Proof.Val.TakeDefs

set_option maxRecDepth 16384

noncomputable section

namespace Cert.Bridge

open Idealize.ShloMosaic Idealize.ShloMosaic.TcCoe Idealize.ShloMosaic.ValueIdx Idealize.SL.Sem

variable {F : FTy → Type} [FloatOps F]

section TakeA
open Cert.KernelIdeal Cert.KernelIdeal.Gen

-- The stretch is the position column (8 operations), its in-range mask (10) and the masked row gather (5), read one run at a time.
theorem takeA_pos (Y : Valuation τ sig (Elt F)) :
    StableHlo.after (hostOps1_1.take 8) Y (Proc.devRef .tc main_call0_v5) = wrapCol (Y (Proc.devRef .tc main_v1))
    ∧ StableHlo.after (hostOps1_1.take 8) Y (Proc.devRef .tc main_v10) = Y (Proc.devRef .tc main_v10) := by
  constructor <;> show StableHlo.after [_, _, _, _, _, _, _, _] Y _ = _ <;> after_results
  rfl

attribute [local irreducible] Host.reduce in
theorem takeA_mask (Y : Valuation τ sig (Elt F)) :
    StableHlo.after ((hostOps1_1.drop 8).take 10) Y (Proc.devRef .tc main_call0_v12) = colInRange (Y (Proc.devRef .tc main_call0_v5))
    ∧ StableHlo.after ((hostOps1_1.drop 8).take 10) Y (Proc.devRef .tc main_call0_v5) = Y (Proc.devRef .tc main_call0_v5)
    ∧ StableHlo.after ((hostOps1_1.drop 8).take 10) Y (Proc.devRef .tc main_v10) = Y (Proc.devRef .tc main_v10) := by
  refine ⟨?_, ?_, ?_⟩ <;> show StableHlo.after [_, _, _, _, _, _, _, _, _, _] Y _ = _ <;> after_results
  rfl

attribute [local irreducible] Host.gather in
theorem takeA_rows (Y : Valuation τ sig (Elt F)) :
    StableHlo.after (hostOps1_1.drop 18) Y (Proc.devRef .tc main_v13)
      = select (broadcastInDim S1600000x16 ![0] bcast_S1600000_S1600000x16_0 (Y (Proc.devRef .tc main_call0_v12)))
          (Host.gather gather_S100000x16_S1600000x1_S1600000x16_1_0_n_n_0_1_116 (Y (Proc.devRef .tc main_v10)) (Y (Proc.devRef .tc main_call0_v5)))
          (broadcastInDim S1600000x16 ![] bcast_S_S1600000x16 (constant (F := F) S_ .f32 0x7FC00000#32)) := by
  show StableHlo.after [_, _, _, _, _] Y _ = _
  after_results
  rfl

theorem takeA_split : (hostOps1_1 : List (HloOp τ sig (Elt F))) = hostOps1_1.take 8 ++ ((hostOps1_1.drop 8).take 10 ++ hostOps1_1.drop 18) := rfl

theorem takeA_stretch (Y : Valuation τ sig (Elt F)) :
    StableHlo.after hostOps1_1 Y (Proc.devRef .tc main_v13)
      = takeFill gather_S100000x16_S1600000x1_S1600000x16_1_0_n_n_0_1_116 bcast_S1600000_S1600000x16_0 bcast_S_S1600000x16
          (Y (Proc.devRef .tc main_v10)) (Y (Proc.devRef .tc main_v1)) := by
  rw [takeA_split, StableHlo.after_append, StableHlo.after_append, takeA_rows, (takeA_mask _).1, (takeA_mask _).2.1, (takeA_mask _).2.2,
    (takeA_pos _).1, (takeA_pos _).2]
  rfl

end TakeA

end Cert.Bridge

end
-- ==== Proof.Val.TakeB.lean ====
import proofs.«417496_j30210799960814_2_alg».proof.Proof.Gen.KernelIdeal.Launch
import proofs.«417496_j30210799960814_2_alg».proof.Proof.Val.TakeDefs

set_option maxRecDepth 16384

noncomputable section

namespace Cert.Bridge

open Idealize.ShloMosaic Idealize.ShloMosaic.TcCoe Idealize.ShloMosaic.ValueIdx Idealize.SL.Sem

variable {F : FTy → Type} [FloatOps F]

section TakeB
open Cert.KernelIdeal Cert.KernelIdeal.Gen

-- The stretch is the position column (8 operations), its in-range mask (10) and the masked row gather (5), read one run at a time.
theorem takeB_pos (Y : Valuation τ sig (Elt F)) :
    StableHlo.after (hostOps1_2.take 8) Y (Proc.devRef .tc main_call1_v5) = wrapCol (Y (Proc.devRef .tc main_v1))
    ∧ StableHlo.after (hostOps1_2.take 8) Y (Proc.devRef .tc main_v11) = Y (Proc.devRef .tc main_v11) := by
  constructor <;> show StableHlo.after [_, _, _, _, _, _, _, _] Y _ = _ <;> after_results
  rfl

attribute [local irreducible] Host.reduce in
theorem takeB_mask (Y : Valuation τ sig (Elt F)) :
    StableHlo.after ((hostOps1_2.drop 8).take 10) Y (Proc.devRef .tc main_call1_v12) = colInRange (Y (Proc.devRef .tc main_call1_v5))
    ∧ StableHlo.after ((hostOps1_2.drop 8).take 10) Y (Proc.devRef .tc main_call1_v5) = Y (Proc.devRef .tc main_call1_v5)
    ∧ StableHlo.after ((hostOps1_2.drop 8).take 10) Y (Proc.devRef .tc main_v11) = Y (Proc.devRef .tc main_v11) := by
  refine ⟨?_, ?_, ?_⟩ <;> show StableHlo.after [_, _, _, _, _, _, _, _, _, _] Y _ = _ <;> after_results
  rfl

attribute [local irreducible] Host.gather in
theorem takeB_rows (Y : Valuation τ sig (Elt F)) :
    StableHlo.after (hostOps1_2.drop 18) Y (Proc.devRef .tc main_v14)
      = select (broadcastInDim S1600000x16 ![0] bcast_S1600000_S1600000x16_0 (Y (Proc.devRef .tc main_call1_v12)))
          (Host.gather gather_S100000x16_S1600000x1_S1600000x16_1_0_n_n_0_1_116 (Y (Proc.devRef .tc main_v11)) (Y (Proc.devRef .tc main_call1_v5)))
          (broadcastInDim S1600000x16 ![] bcast_S_S1600000x16 (constant (F := F) S_ .f32 0x7FC00000#32)) := by
  show StableHlo.after [_, _, _, _, _] Y _ = _
  after_results
  rfl

theorem takeB_split : (hostOps1_2 : List (HloOp τ sig (Elt F))) = hostOps1_2.take 8 ++ ((hostOps1_2.drop 8).take 10 ++ hostOps1_2.drop 18) := rfl

theorem takeB_stretch (Y : Valuation τ sig (Elt F)) :
    StableHlo.after hostOps1_2 Y (Proc.devRef .tc main_v14)
      = takeFill gather_S100000x16_S1600000x1_S1600000x16_1_0_n_n_0_1_116 bcast_S1600000_S1600000x16_0 bcast_S_S1600000x16
          (Y (Proc.devRef .tc main_v11)) (Y (Proc.devRef .tc main_v1)) := by
  rw [takeB_split, StableHlo.after_append, StableHlo.after_append, takeB_rows, (takeB_mask _).1, (takeB_mask _).2.1, (takeB_mask _).2.2,
    (takeB_pos _).1, (takeB_pos _).2]
  rfl

end TakeB

end Cert.Bridge

end
-- ==== Proof.Val.BlendBridge.lean ====
import proofs.«417496_j30210799960814_2_alg».proof.Proof.KI.Segs
import proofs.«417496_j30210799960814_2_alg».proof.Proof.Ref.Ops
import proofs.«417496_j30210799960814_2_alg».proof.Proof.Val.BlendVal
import proofs.«417496_j30210799960814_2_alg».proof.Proof.Val.BlendWalk
import proofs.«417496_j30210799960814_2_alg».proof.Proof.Val.TakeA
import proofs.«417496_j30210799960814_2_alg».proof.Proof.Val.TakeB

noncomputable section

namespace Cert.Bridge

open Idealize.ShloMosaic Idealize.ShloMosaic.TcCoe Idealize.ShloMosaic.ValueIdx Idealize.SL.Sem
open Cert.KernelIdeal.Val (blendRows blend_host blend1_array)

variable {F : FTy → Type} [FloatOps F]

section RefBlend
open Cert.ReferenceIdeal Cert.ReferenceIdeal.Gen Cert.ReferenceIdeal.RefRun

attribute [local irreducible] Host.gather in
set_option maxHeartbeats 2000000 in
/-- The reference's blend stretch leaves the blend of its two gathered tables by the weight column. -/
theorem ref_stretch1 (Z : Valuation τ sig (Elt F)) :
    StableHlo.after ops1 Z (Proc.devRef .tc main_v33)
      = blendRows (Z (Proc.devRef .tc main_arg2))
          (Host.gather gather_S100000x16_S1600000x1_S1600000x16_1_0_n_n_0_1_116 (Z (Proc.devRef .tc main_v6)) (wrapCol (Z (Proc.devRef .tc main_v1))))
          (Host.gather gather_S100000x16_S1600000x1_S1600000x16_1_0_n_n_0_1_116 (Z (Proc.devRef .tc main_v9)) (wrapCol (Z (Proc.devRef .tc main_v1)))) := by
  after_results_simp
  exact blend_host _ _ _ _ _ _ _

end RefBlend

section Both
open Cert.KernelIdeal.Frm Cert.ReferenceIdeal.RefRun

attribute [local irreducible] Host.gather in
/-- With every source index in range both programs blend the same plain gathers, so the first layer's blended arrays agree. -/
theorem blend1 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (hr : ∀ (i : Cert.KernelIdeal.S2x1600000.Idx), (i 0).val = 0 →
      (-100000 : Int) ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 100000)
    (h10 : Y3 m c Cert.KernelIdeal.main_v10 = RV0 m' c Cert.ReferenceIdeal.main_v6)
    (h11 : Y3 m c Cert.KernelIdeal.main_v11 = RV0 m' c Cert.ReferenceIdeal.main_v9) :
    Y6 m c Cert.KernelIdeal.main_v15 = RV1 m' c Cert.ReferenceIdeal.main_v33 := by
  open Cert.KernelIdeal Cert.KernelIdeal.Gen in
  obtain ⟨-, ha1, ha2, -⟩ := hagree c
  have hs := srcRow_range _ hr
  have ea : Y5 m c main_v13 = _ := (Y5_of m c main_v13 (by decide)).trans (takeA_stretch (Y3 m c))
  have eb : Y5 m c main_v14 = _ := takeB_stretch (Y4 m c)
  rw [Y4_of m c main_v11 (by decide), Y4_of m c main_v1 (by decide)] at eb
  rw [Y6_out]
  unfold b6
  rw [blend1_array (T5 m) c]
  show blendRows (Y5 m c main_arg2) (Y5 m c main_v13) (Y5 m c main_v14) = _
  rw [ea, eb, ker_wts5, ker_src3, takeFill_eq_gather _ _ _ _ _ hs, takeFill_eq_gather _ _ _ _ _ hs, h10, h11,
    show RV1 m' c Cert.ReferenceIdeal.main_v33 = _ from ref_stretch1 (RV0 m' c), ref_src0, ref_wts0, ha1, ha2]
  rfl

end Both

end Cert.Bridge

end
-- ==== Proof.Val.BlendVal2.lean ====
import proofs.«417496_j30210799960814_2_alg».proof.Proof.KI.Reg4
import proofs.«417496_j30210799960814_2_alg».proof.Proof.Val.BlendRows
import proofs.«417496_j30210799960814_2_alg».proof.Proof.Val.MatLib

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

theorem block_index4 : ∀ t : Fin cfg4.N, win4_3.index t = ![t.val, 0] :=
  (by decide +kernel : ∀ t : Fin grid4.N, _)

/-- Row r of the weight block is row r of the output block. -/
theorem emb4_2 (t : Fin cfg4.N) (j : S4000x10.Idx) :
    ((cfg4.win 2).blk t).view.emb (ix2 (j 0) (0 : Fin 1)) = ix2 ((((cfg4.win 3).blk t).view.emb j) 0) (0 : Fin 1) :=
  funext fun a => match a with | ⟨0, _⟩ => rfl | ⟨1, _⟩ => rfl

theorem flushed4_eq (c : Dev nD) (t : Fin cfg4.N) :
    (dat4 V c).flushed 3 t = ((cfg4.win 3).blk t).view.read (Elt F) (blendRows (V c main_arg2) (V c main_v35) (V c main_v36)) := by
  show (cfg4.win 3).cut (grid4.coords t) ((dat4 V c).after 3 t) = _
  rw [after4_3]
  unfold out4_3
  rw [View.canon_unit_zero off_zero]
  simp only [View.ld_unit_zero (S := S4000x10) off_zero, View.ld_unit_zero (S := S4000x1) off_zero]
  exact (blend_pay _ _ _ _ _).trans (blendRows_comp _ _ (emb4_2 t) (V c main_arg2) (V c main_v35) (V c main_v36))

theorem cover4 (i : S1600000x10.Idx) : ∃ t : Fin cfg4.N, (cfg4.win 3).flush t = true ∧ i ∈ ((cfg4.win 3).blk t).view.set := by
  have h : (i 0).val / 4000 < 400 := by have := idx2_lt0 i; omega
  refine ⟨⟨_, h⟩, flush4_3 _, ?_⟩
  show i ∈ ((View.whole main_v37).slice (win4_3.rect ⟨_, h⟩)).set
  rw [View.set_slice_whole]
  exact mem_rowBlock i (block_index4 ⟨_, h⟩) rfl rfl (by decide)

theorem blend4_array (c : Dev nD) :
    (dat4 V c).arrAt 3 cfg4.N = blendRows (V c main_arg2) (V c main_v35) (V c main_v36) :=
  (dat4 V c).arrAt_eq_of_cover 3 _ (fun t _ => flushed4_eq V c t) cover4

end Cert.KernelIdeal.Val

end
-- ==== Proof.Val.TakeC.lean ====
import proofs.«417496_j30210799960814_2_alg».proof.Proof.Gen.KernelIdeal.Launch
import proofs.«417496_j30210799960814_2_alg».proof.Proof.Val.TakeDefs

set_option maxRecDepth 16384

noncomputable section

namespace Cert.Bridge

open Idealize.ShloMosaic Idealize.ShloMosaic.TcCoe Idealize.ShloMosaic.ValueIdx Idealize.SL.Sem

variable {F : FTy → Type} [FloatOps F]

section TakeC
open Cert.KernelIdeal Cert.KernelIdeal.Gen

-- The stretch is the position column (8 operations), its in-range mask (10) and the masked row gather (5), read one run at a time.
theorem takeC_pos (Y : Valuation τ sig (Elt F)) :
    StableHlo.after (hostOps4_1.take 8) Y (Proc.devRef .tc main_call2_v5) = wrapCol (Y (Proc.devRef .tc main_v1))
    ∧ StableHlo.after (hostOps4_1.take 8) Y (Proc.devRef .tc main_v32) = Y (Proc.devRef .tc main_v32) := by
  constructor <;> show StableHlo.after [_, _, _, _, _, _, _, _] Y _ = _ <;> after_results
  rfl

attribute [local irreducible] Host.reduce in
theorem takeC_mask (Y : Valuation τ sig (Elt F)) :
    StableHlo.after ((hostOps4_1.drop 8).take 10) Y (Proc.devRef .tc main_call2_v12) = colInRange (Y (Proc.devRef .tc main_call2_v5))
    ∧ StableHlo.after ((hostOps4_1.drop 8).take 10) Y (Proc.devRef .tc main_call2_v5) = Y (Proc.devRef .tc main_call2_v5)
    ∧ StableHlo.after ((hostOps4_1.drop 8).take 10) Y (Proc.devRef .tc main_v32) = Y (Proc.devRef .tc main_v32) := by
  refine ⟨?_, ?_, ?_⟩ <;> show StableHlo.after [_, _, _, _, _, _, _, _, _, _] Y _ = _ <;> after_results
  rfl

attribute [local irreducible] Host.gather in
theorem takeC_rows (Y : Valuation τ sig (Elt F)) :
    StableHlo.after (hostOps4_1.drop 18) Y (Proc.devRef .tc main_v35)
      = select (broadcastInDim S1600000x10 ![0] bcast_S1600000_S1600000x10_0 (Y (Proc.devRef .tc main_call2_v12)))
          (Host.gather gather_S100000x10_S1600000x1_S1600000x10_1_0_n_n_0_1_110 (Y (Proc.devRef .tc main_v32)) (Y (Proc.devRef .tc main_call2_v5)))
          (broadcastInDim S1600000x10 ![] bcast_S_S1600000x10 (constant (F := F) S_ .f32 0x7FC00000#32)) := by
  show StableHlo.after [_, _, _, _, _] Y _ = _
  after_results
  rfl

theorem takeC_split : (hostOps4_1 : List (HloOp τ sig (Elt F))) = hostOps4_1.take 8 ++ ((hostOps4_1.drop 8).take 10 ++ hostOps4_1.drop 18) := rfl

theorem takeC_stretch (Y : Valuation τ sig (Elt F)) :
    StableHlo.after hostOps4_1 Y (Proc.devRef .tc main_v35)
      = takeFill gather_S100000x10_S1600000x1_S1600000x10_1_0_n_n_0_1_110 bcast_S1600000_S1600000x10_0 bcast_S_S1600000x10
          (Y (Proc.devRef .tc main_v32)) (Y (Proc.devRef .tc main_v1)) := by
  rw [takeC_split, StableHlo.after_append, StableHlo.after_append, takeC_rows, (takeC_mask _).1, (takeC_mask _).2.1, (takeC_mask _).2.2,
    (takeC_pos _).1, (takeC_pos _).2]
  rfl

end TakeC

end Cert.Bridge

end
-- ==== Proof.Val.TakeD.lean ====
import proofs.«417496_j30210799960814_2_alg».proof.Proof.Gen.KernelIdeal.Launch
import proofs.«417496_j30210799960814_2_alg».proof.Proof.Val.TakeDefs

set_option maxRecDepth 16384

noncomputable section

namespace Cert.Bridge

open Idealize.ShloMosaic Idealize.ShloMosaic.TcCoe Idealize.ShloMosaic.ValueIdx Idealize.SL.Sem

variable {F : FTy → Type} [FloatOps F]

section TakeD
open Cert.KernelIdeal Cert.KernelIdeal.Gen

-- The stretch is the position column (8 operations), its in-range mask (10) and the masked row gather (5), read one run at a time.
theorem takeD_pos (Y : Valuation τ sig (Elt F)) :
    StableHlo.after (hostOps4_2.take 8) Y (Proc.devRef .tc main_call3_v5) = wrapCol (Y (Proc.devRef .tc main_v1))
    ∧ StableHlo.after (hostOps4_2.take 8) Y (Proc.devRef .tc main_v33) = Y (Proc.devRef .tc main_v33) := by
  constructor <;> show StableHlo.after [_, _, _, _, _, _, _, _] Y _ = _ <;> after_results
  rfl

attribute [local irreducible] Host.reduce in
theorem takeD_mask (Y : Valuation τ sig (Elt F)) :
    StableHlo.after ((hostOps4_2.drop 8).take 10) Y (Proc.devRef .tc main_call3_v12) = colInRange (Y (Proc.devRef .tc main_call3_v5))
    ∧ StableHlo.after ((hostOps4_2.drop 8).take 10) Y (Proc.devRef .tc main_call3_v5) = Y (Proc.devRef .tc main_call3_v5)
    ∧ StableHlo.after ((hostOps4_2.drop 8).take 10) Y (Proc.devRef .tc main_v33) = Y (Proc.devRef .tc main_v33) := by
  refine ⟨?_, ?_, ?_⟩ <;> show StableHlo.after [_, _, _, _, _, _, _, _, _, _] Y _ = _ <;> after_results
  rfl

attribute [local irreducible] Host.gather in
theorem takeD_rows (Y : Valuation τ sig (Elt F)) :
    StableHlo.after (hostOps4_2.drop 18) Y (Proc.devRef .tc main_v36)
      = select (broadcastInDim S1600000x10 ![0] bcast_S1600000_S1600000x10_0 (Y (Proc.devRef .tc main_call3_v12)))
          (Host.gather gather_S100000x10_S1600000x1_S1600000x10_1_0_n_n_0_1_110 (Y (Proc.devRef .tc main_v33)) (Y (Proc.devRef .tc main_call3_v5)))
          (broadcastInDim S1600000x10 ![] bcast_S_S1600000x10 (constant (F := F) S_ .f32 0x7FC00000#32)) := by
  show StableHlo.after [_, _, _, _, _] Y _ = _
  after_results
  rfl

theorem takeD_split : (hostOps4_2 : List (HloOp τ sig (Elt F))) = hostOps4_2.take 8 ++ ((hostOps4_2.drop 8).take 10 ++ hostOps4_2.drop 18) := rfl

theorem takeD_stretch (Y : Valuation τ sig (Elt F)) :
    StableHlo.after hostOps4_2 Y (Proc.devRef .tc main_v36)
      = takeFill gather_S100000x10_S1600000x1_S1600000x10_1_0_n_n_0_1_110 bcast_S1600000_S1600000x10_0 bcast_S_S1600000x10
          (Y (Proc.devRef .tc main_v33)) (Y (Proc.devRef .tc main_v1)) := by
  rw [takeD_split, StableHlo.after_append, StableHlo.after_append, takeD_rows, (takeD_mask _).1, (takeD_mask _).2.1, (takeD_mask _).2.2,
    (takeD_pos _).1, (takeD_pos _).2]
  rfl

end TakeD

end Cert.Bridge

end
-- ==== Proof.Val.BlendBridge2.lean ====
import proofs.«417496_j30210799960814_2_alg».proof.Proof.KI.Segs
import proofs.«417496_j30210799960814_2_alg».proof.Proof.Ref.Ops
import proofs.«417496_j30210799960814_2_alg».proof.Proof.Val.BlendVal2
import proofs.«417496_j30210799960814_2_alg».proof.Proof.Val.BlendWalk
import proofs.«417496_j30210799960814_2_alg».proof.Proof.Val.TakeC
import proofs.«417496_j30210799960814_2_alg».proof.Proof.Val.TakeD

noncomputable section

namespace Cert.Bridge

open Idealize.ShloMosaic Idealize.ShloMosaic.TcCoe Idealize.ShloMosaic.ValueIdx Idealize.SL.Sem
open Cert.KernelIdeal.Val (blendRows blend_host blend4_array)

variable {F : FTy → Type} [FloatOps F]

section RefBlend
open Cert.ReferenceIdeal Cert.ReferenceIdeal.Gen Cert.ReferenceIdeal.RefRun

attribute [local irreducible] Host.gather in
set_option maxHeartbeats 2000000 in
/-- The reference's blend stretch leaves the blend of its two gathered tables by the weight column. -/
theorem ref_stretch2 (Z : Valuation τ sig (Elt F)) :
    StableHlo.after ops6 Z (Proc.devRef .tc main_v81)
      = blendRows (Z (Proc.devRef .tc main_arg2))
          (Host.gather gather_S100000x10_S1600000x1_S1600000x10_1_0_n_n_0_1_110 (Z (Proc.devRef .tc main_v54)) (wrapCol (Z (Proc.devRef .tc main_v1))))
          (Host.gather gather_S100000x10_S1600000x1_S1600000x10_1_0_n_n_0_1_110 (Z (Proc.devRef .tc main_v57)) (wrapCol (Z (Proc.devRef .tc main_v1)))) := by
  after_results_simp
  exact blend_host _ _ _ _ _ _ _

end RefBlend

section Both
open Cert.KernelIdeal.Frm Cert.ReferenceIdeal.RefRun

attribute [local irreducible] Host.gather in
/-- With every source index in range both programs blend the same plain gathers, so the second layer's blended arrays agree. -/
theorem blend2 (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (hr : ∀ (i : Cert.KernelIdeal.S2x1600000.Idx), (i 0).val = 0 →
      (-100000 : Int) ≤ (m ((c.tc : Thread Cert.KernelIdeal.nD Cert.KernelIdeal.τ).loc Cert.KernelIdeal.main_arg1) i).toInt
      ∧ (m ((c.tc : Thread Cert.KernelIdeal.nD Cert.KernelIdeal.τ).loc Cert.KernelIdeal.main_arg1) i).toInt < 100000)
    (h32 : Y11 m c Cert.KernelIdeal.main_v32 = RV5 m' c Cert.ReferenceIdeal.main_v54)
    (h33 : Y11 m c Cert.KernelIdeal.main_v33 = RV5 m' c Cert.ReferenceIdeal.main_v57) :
    Y14 m c Cert.KernelIdeal.main_v37 = RV6 m' c Cert.ReferenceIdeal.main_v81 := by
  open Cert.KernelIdeal Cert.KernelIdeal.Gen in
  obtain ⟨-, ha1, ha2, -⟩ := hagree c
  have hs := srcRow_range _ hr
  have ea : Y13 m c main_v35 = _ := (Y13_of m c main_v35 (by decide)).trans (takeC_stretch (Y11 m c))
  have eb : Y13 m c main_v36 = _ := takeD_stretch (Y12 m c)
  rw [Y12_of m c main_v33 (by decide), Y12_of m c main_v1 (by decide)] at eb
  rw [Y14_out]
  unfold b14
  rw [blend4_array (T13 m) c]
  show blendRows (Y13 m c main_arg2) (Y13 m c main_v35) (Y13 m c main_v36) = _
  rw [ea, eb, ker_wts13, ker_src11, takeFill_eq_gather _ _ _ _ _ hs, takeFill_eq_gather _ _ _ _ _ hs, h32, h33,
    show RV6 m' c Cert.ReferenceIdeal.main_v81 = _ from ref_stretch2 (RV5 m' c), ref_src5, ref_wts5, ha1, ha2]
  rfl

end Both

end Cert.Bridge

end
-- ==== Proof.Val.CombVal.lean ====
import proofs.«417496_j30210799960814_2_alg».proof.Proof.KI.Reg2
import proofs.«417496_j30210799960814_2_alg».proof.Proof.KI.Reg5
import proofs.«417496_j30210799960814_2_alg».proof.Proof.Val.MatLib
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx
open Idealize.ShloMosaic.Pipeline (Dat Cfg Window)

def meanK (a d r b : EReal) : EReal := Ideal.div a (max d (Ideal.ofBits .f32 0x3F800000#32)) + r + b

def eluK (v : EReal) : EReal :=
  Scalar.select (Ideal.cmp .ogt v (Ideal.ofBits .f32 0x00000000#32)) v
    (Ideal.exp (min v (Ideal.ofBits .f32 0x00000000#32)) - Ideal.ofBits .f32 0x3F800000#32)

theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem exp_at {s : Shape} {φ : FTy} (a : FVec Ideal s φ) (i : s.Idx) : exp a i = Ideal.exp (a i) := rfl

/-- The node update of either layer: f of the mean of row i's summed messages, its root term and the bias of column j. -/
def combine {n : ℕ} (f : EReal → EReal) (a r : (⟨2, ![100000, n]⟩ : Shape).Idx → EReal) (d : S100000x1.Idx → EReal)
    (b : (⟨2, ![1, n]⟩ : Shape).Idx → EReal) : (⟨2, ![100000, n]⟩ : Shape).Idx → EReal :=
  fun i => f (meanK (a i) (d (ix2 (i 0 : Fin 100000) (0 : Fin 1))) (r i) (b (ix2 (0 : Fin 1) (i 1 : Fin n))))

/-- A body that is f of the mean entry by entry, on blocks read from the four arrays where the output block sits, leaves that block of the node update. -/
theorem pay_point {n : ℕ} {f : EReal → EReal}
    {P : (S5000x1.Idx → EReal) → ((⟨2, ![5000, n]⟩ : Shape).Idx → EReal) → ((⟨2, ![5000, n]⟩ : Shape).Idx → EReal) →
      ((⟨2, ![1, n]⟩ : Shape).Idx → EReal) → (⟨2, ![5000, n]⟩ : Shape).Idx → EReal}
    (hP : ∀ x1 x0 x2 x3 (p : Fin 5000) (q : Fin n), P x1 x0 x2 x3 (ix2 p q)
      = f (meanK (x0 (ix2 p q)) (x1 (ix2 p (0 : Fin 1))) (x2 (ix2 p q)) (x3 (ix2 (0 : Fin 1) q))))
    (a r : (⟨2, ![100000, n]⟩ : Shape).Idx → EReal) (d : S100000x1.Idx → EReal) (b : (⟨2, ![1, n]⟩ : Shape).Idx → EReal)
    (e : (⟨2, ![5000, n]⟩ : Shape).Idx → (⟨2, ![100000, n]⟩ : Shape).Idx) (e1 : S5000x1.Idx → S100000x1.Idx)
    (e3 : (⟨2, ![1, n]⟩ : Shape).Idx → (⟨2, ![1, n]⟩ : Shape).Idx)
    (h1 : ∀ p q, e1 (ix2 p (0 : Fin 1)) 0 = e (ix2 p q) 0) (h3 : ∀ p q, e3 (ix2 (0 : Fin 1) q) 1 = e (ix2 p q) 1)
    (y : (⟨2, ![5000, n]⟩ : Shape).Idx) :
    P (fun z => d (e1 z)) (fun z => a (e z)) (fun z => r (e z)) (fun z => b (e3 z)) y = combine f a r d b (e y) := by
  obtain ⟨p, q, rfl⟩ : ∃ (p : Fin 5000) (q : Fin n), y = ix2 p q := ⟨y 0, y 1, eq_ix2 y⟩
  rw [hP]
  show f (meanK _ (d (e1 (ix2 p (0 : Fin 1)))) _ (b (e3 (ix2 (0 : Fin 1) q)))) = f (meanK _ (d (ix2 (e (ix2 p q) 0) (0 : Fin 1))) _ (b (ix2 (0 : Fin 1) (e (ix2 p q) 1))))
  rw [eq_ix2 (e1 _), eq_ix2 (e3 _), h1 p q, h3 p q, Subsingleton.elim (α := Fin 1) (e1 _ 1) 0, Subsingleton.elim (α := Fin 1) (e3 _ 0) 0]
  rfl

variable (V : (c : Dev nD) → (b : Ref sig .tc) → Buf (Elt Ideal) ((c : Thread nD τ).loc b))

theorem pay2_at (x1 : Vec Ideal S5000x1 .f32) (x0 x2 : Vec Ideal S5000x16 .f32) (x3 : Vec Ideal S1x16 .f32) (p : Fin 5000) (q : Fin 16) :
    k2_pay1 (F := Ideal) x1 x0 x2 x3 (ix2 p q)
      = eluK (meanK (x0 (ix2 p q)) (x1 (ix2 p (0 : Fin 1))) (x2 (ix2 p q)) (x3 (ix2 (0 : Fin 1) q))) := by
  unfold k2_pay1
  simp only [shapeCast_self]
  simp only [select_apply, cmpf_apply, subf_apply, exp_at, minimumf_apply, addf_apply, divf_apply, maximumf_apply, broadcast_apply,
    broadcastTo_a1_ab_apply, broadcastTo_1b_ab_apply]
  rfl

theorem blockIdx2 : ∀ t : Fin cfg2.N, win2_4.index t = ![t.val, 0] :=
  (by decide +kernel : ∀ t : Fin grid2.N, _)

/-- The first layer's output array: the node update, with the unit, of the four arrays the region reads. -/
theorem comb2_arr (c : Dev nD) :
    (dat2 (F := Ideal) V c).arrAt 4 cfg2.N = combine eluK (V c main_v18) (V c main_v12) (V c main_v23) (V c main_v24) := by
  refine (dat2 V c).arrAt_eq_of_cover 4 _ (fun t _ => ?_) fun i => ?_
  · show (cfg2.win 4).cut (grid2.coords t) ((dat2 V c).after 4 t) = _
    rw [after2_4]
    unfold out2_4
    rw [View.canon_unit_zero off_zero]
    simp only [View.ld_unit_zero (S := S5000x16) off_zero, View.ld_unit_zero (S := S5000x1) off_zero, View.ld_unit_zero (S := S1x16) off_zero]
    exact funext (pay_point pay2_at _ _ _ _ ((cfg2.win 4).blk t).view.emb ((cfg2.win 1).blk t).view.emb ((cfg2.win 3).blk t).view.emb
      (fun _ _ => rfl) (fun _ _ => rfl))
  · have hi0 : (i 0).val < 100000 := (i 0).isLt
    have hN : grid2.N = 20 := N_2
    let t : Fin cfg2.N := ⟨(i 0).val / 5000, by show (i 0).val / 5000 < grid2.N; omega⟩
    refine ⟨t, flush2_4 t, ?_⟩
    show i ∈ ((View.whole main_v25).slice (win2_4.rect t)).set
    rw [View.set_slice_whole]
    exact mem_rowBlock i (blockIdx2 t) rfl rfl (by decide)

theorem pay5_at (x1 : Vec Ideal S5000x1 .f32) (x0 x2 : Vec Ideal S5000x10 .f32) (x3 : Vec Ideal S1x10 .f32) (p : Fin 5000) (q : Fin 10) :
    k5_pay1 (F := Ideal) x1 x0 x2 x3 (ix2 p q)
      = id (meanK (x0 (ix2 p q)) (x1 (ix2 p (0 : Fin 1))) (x2 (ix2 p q)) (x3 (ix2 (0 : Fin 1) q))) := by
  unfold k5_pay1
  simp only [shapeCast_self]
  simp only [addf_apply, divf_apply, maximumf_apply, broadcast_apply, broadcastTo_a1_ab_apply, broadcastTo_1b_ab_apply]
  rfl

theorem blockIdx5 : ∀ t : Fin cfg5.N, win5_4.index t = ![t.val, 0] :=
  (by decide +kernel : ∀ t : Fin grid5.N, _)

/-- The second layer's output array: the same over rows of width ten, without the unit. -/
theorem comb5_arr (c : Dev nD) :
    (dat5 (F := Ideal) V c).arrAt 4 cfg5.N = combine id (V c main_v40) (V c main_v34) (V c main_v45) (V c main_v46) := by
  refine (dat5 V c).arrAt_eq_of_cover 4 _ (fun t _ => ?_) fun i => ?_
  · show (cfg5.win 4).cut (grid5.coords t) ((dat5 V c).after 4 t) = _
    rw [after5_4]
    unfold out5_4
    rw [View.canon_unit_zero off_zero]
    simp only [View.ld_unit_zero (S := S5000x10) off_zero, View.ld_unit_zero (S := S5000x1) off_zero, View.ld_unit_zero (S := S1x10) off_zero]
    exact funext (pay_point pay5_at _ _ _ _ ((cfg5.win 4).blk t).view.emb ((cfg5.win 1).blk t).view.emb ((cfg5.win 3).blk t).view.emb
      (fun _ _ => rfl) (fun _ _ => rfl))
  · have hi0 : (i 0).val < 100000 := (i 0).isLt
    have hN : grid5.N = 20 := N_5
    let t : Fin cfg5.N := ⟨(i 0).val / 5000, by show (i 0).val / 5000 < grid5.N; omega⟩
    refine ⟨t, flush5_4 t, ?_⟩
    show i ∈ ((View.whole main_v47).slice (win5_4.rect t)).set
    rw [View.set_slice_whole]
    exact mem_rowBlock i (blockIdx5 t) rfl rfl (by decide)

end Cert.KernelIdeal.Val
end
-- ==== Proof.Val.CombBridge.lean ====
import proofs.«417496_j30210799960814_2_alg».proof.Proof.Val.CombVal
import proofs.«417496_j30210799960814_2_alg».proof.Proof.KI.Segs
import proofs.«417496_j30210799960814_2_alg».proof.Proof.Ref.Ops
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Run
import Idealize.ShloMosaic.Lib.StableHlo.Predicate

set_option maxRecDepth 16384

noncomputable section

namespace Cert.Bridge

open Idealize.ShloMosaic Idealize.ShloMosaic.TcCoe Idealize.ShloMosaic.ValueIdx Idealize.SL.Sem
open Idealize.ShloMosaic.StableHlo.Predicate (bcast_rows bcast_cols)
open Cert.KernelIdeal.Val

theorem shapeCast_a_a1_apply {α : Type} {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- Where v is positive both spellings give v; elsewhere min v 0 = v and the inner choice is v, so both give exp v - 1. -/
theorem elu_law (v : EReal) :
    eluK v = Scalar.select (Ideal.cmp .ogt v (Ideal.ofBits .f32 0x00000000#32)) v
      (Ideal.ofBits .f32 0x3F800000#32 * (Ideal.exp (Scalar.select (Ideal.cmp .ogt v (Ideal.ofBits .f32 0x00000000#32)) (Ideal.ofBits .f32 0x00000000#32) v) - 1)) := by
  unfold eluK
  by_cases h : Ideal.ofBits .f32 0x00000000#32 < v
  · have hc : Ideal.cmp .ogt v (Ideal.ofBits .f32 0x00000000#32) = 1#1 := by
      unfold Ideal.cmp; simp only [h, decide_true]; rfl
    rw [hc, select_one, select_one]
  · have hc : Ideal.cmp .ogt v (Ideal.ofBits .f32 0x00000000#32) = 0#1 := by
      unfold Ideal.cmp; simp only [h, decide_false]; rfl
    rw [hc, select_zero, select_zero, select_zero, min_eq_left (not_lt.mp h), Ideal.ofBits_one_f32, one_mul]

/-- The node update over an in-degree and a bias laid as a column and a row reads the vectors at the row and the column. -/
theorem combine_cast {n : ℕ} (f : EReal → EReal) (a r : (⟨2, ![100000, n]⟩ : Shape).Idx → EReal) (dg : (⟨1, ![100000]⟩ : Shape).Idx → EReal)
    (b : (⟨1, ![n]⟩ : Shape).Idx → EReal) (h1 : (⟨1, ![100000]⟩ : Shape).ShapeCasts ⟨2, ![100000, 1]⟩)
    (h2 : (⟨1, ![n]⟩ : Shape).ShapeCasts ⟨2, ![1, n]⟩) (p : Fin 100000) (q : Fin n) :
    combine f a r (shapeCast ⟨2, ![100000, 1]⟩ dg h1) (shapeCast ⟨2, ![1, n]⟩ b h2) (ix2 p q)
      = f (meanK (a (ix2 p q)) (dg (ix1 p)) (r (ix2 p q)) (b (ix1 q))) := by
  show f (meanK _ (shapeCast _ dg h1 (ix2 p (0 : Fin 1))) _ (shapeCast _ b h2 (ix2 (0 : Fin 1) q))) = _
  rw [shapeCast_a_a1_apply, shapeCast_a_1a_apply]

section KernelSide
open Cert.KernelIdeal Cert.KernelIdeal.Gen Cert.KernelIdeal.Frm

def segSum (idx : S1600000.Idx → BitVec 32) (u : S1600000x16.Idx → EReal) : S100000x16.Idx → EReal :=
  Host.scatterAdd (F := Ideal) scatter_S100000x16_S1600000x1_S1600000x16_1_0_0_1
      (broadcastInDim S100000x16 ![] bcast_S_S100000x16 (constant (F := Ideal) S_ .f32 0x00000000#32))
      (broadcastInDim S1600000x1 ![0] bcast_S1600000_S1600000x1_0 idx) u

/-- The same for rows of width ten. -/
def segSum10 (idx : S1600000.Idx → BitVec 32) (u : S1600000x10.Idx → EReal) : S100000x10.Idx → EReal :=
  Host.scatterAdd (F := Ideal) scatter_S100000x10_S1600000x1_S1600000x10_1_0_0_1
      (broadcastInDim S100000x10 ![] bcast_S_S100000x10 (constant (F := Ideal) S_ .f32 0x00000000#32))
      (broadcastInDim S1600000x1 ![0] bcast_S1600000_S1600000x1_0 idx) u

def deg (idx : S1600000.Idx → BitVec 32) : S100000.Idx → EReal :=
  Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32))

variable (m : (ℓ : Loc nD τ sig) → Buf (Elt Ideal) ℓ) (c : Dev nD)

theorem k_v18 : Y7 m c main_v18 = segSum (Y6 m c main_v3) (Y6 m c main_v15) := by
  unfold segSum
  show StableHlo.after hostOps2 (Y6 m c) (Proc.devRef .tc main_v18) = _
  after_results

theorem k_v23 : Y7 m c main_v23 = shapeCast S100000x1 (deg (Y6 m c main_v3)) shapeCasts_S100000_S100000x1 := by
  unfold deg
  show StableHlo.after hostOps2 (Y6 m c) (Proc.devRef .tc main_v23) = _
  after_results
  rfl

theorem k_v24 : Y7 m c main_v24 = shapeCast S1x16 (Y6 m c main_arg5) shapeCasts_S16_S1x16 := by
  show StableHlo.after hostOps2 (Y6 m c) (Proc.devRef .tc main_v24) = _
  after_results
  rfl

theorem k_dst : Y1 m c main_v3 = shapeCast S1600000 (extractStridedSlice S1x1600000 ![1, 0] (m ((c : Thread nD τ).loc main_arg1)) slices_S2x1600000_S1x1600000_1_0) shapeCasts_S1x1600000_S1600000 := by
  show StableHlo.after hostOps0 (Y0 m c) (Proc.devRef .tc main_v3) = _
  after_results
  rfl

/-- The first layer's activations in the kernel program: the node update, with the unit, of the segment sums over the destination index. -/
theorem kernel1 : Y8 m c main_v25 = combine eluK (segSum (Y1 m c main_v3) (Y6 m c main_v15)) (Y3 m c main_v12)
      (shapeCast S100000x1 (deg (Y1 m c main_v3)) shapeCasts_S100000_S100000x1)
      (shapeCast S1x16 (m ((c : Thread nD τ).loc main_arg5)) shapeCasts_S16_S1x16) := by
  refine ((Y8_out m c).trans (comb2_arr (T7 m) c)).trans ?_
  show combine eluK (Y7 m c main_v18) (Y7 m c main_v12) (Y7 m c main_v23) (Y7 m c main_v24) = _
  rw [k_v18, k_v23, k_v24]
  simp (disch := decide) only [Y7_of m c, Y6_of m c, Y5_of m c, Y4_of m c, Y3_of m c, Y2_of m c, Y1_of m c]

theorem k_v40 : Y15 m c main_v40 = segSum10 (Y14 m c main_v3) (Y14 m c main_v37) := by
  unfold segSum10
  show StableHlo.after hostOps5 (Y14 m c) (Proc.devRef .tc main_v40) = _
  after_results

theorem k_v45 : Y15 m c main_v45 = shapeCast S100000x1 (deg (Y14 m c main_v3)) shapeCasts_S100000_S100000x1 := by
  unfold deg
  show StableHlo.after hostOps5 (Y14 m c) (Proc.devRef .tc main_v45) = _
  after_results
  rfl

theorem k_v46 : Y15 m c main_v46 = shapeCast S1x10 (Y14 m c main_arg8) shapeCasts_S10_S1x10 := by
  show StableHlo.after hostOps5 (Y14 m c) (Proc.devRef .tc main_v46) = _
  after_results
  rfl

/-- The result in the kernel program: the node update, without the unit, of the segment sums over the destination index. -/
theorem kernel2 : Y16 m c main_v47 = combine id (segSum10 (Y1 m c main_v3) (Y14 m c main_v37)) (Y11 m c main_v34)
      (shapeCast S100000x1 (deg (Y1 m c main_v3)) shapeCasts_S100000_S100000x1)
      (shapeCast S1x10 (m ((c : Thread nD τ).loc main_arg8)) shapeCasts_S10_S1x10) := by
  refine ((Y16_out m c).trans (comb5_arr (T15 m) c)).trans ?_
  show combine id (Y15 m c main_v40) (Y15 m c main_v34) (Y15 m c main_v45) (Y15 m c main_v46) = _
  rw [k_v40, k_v45, k_v46]
  simp (disch := decide) only [Y15_of m c, Y14_of m c, Y13_of m c, Y12_of m c, Y11_of m c, Y10_of m c, Y9_of m c, Y8_of m c,
    Y7_of m c, Y6_of m c, Y5_of m c, Y4_of m c, Y3_of m c, Y2_of m c, Y1_of m c]

end KernelSide

section RefSide
open Cert.ReferenceIdeal Cert.ReferenceIdeal.Gen Cert.ReferenceIdeal.RefRun

/-- The reference's node update of either layer: a / max(deg, 1) along the rows, plus the root term, plus the bias along the columns. -/
def upd {n : ℕ} (a r : FVec Ideal ⟨2, ![100000, n]⟩ .f32) (dg : FVec Ideal ⟨1, ![100000]⟩ .f32) (b : FVec Ideal ⟨1, ![n]⟩ .f32)
    (h1 : (⟨2, ![100000, 1]⟩ : Shape).BroadcastsInDim ⟨2, ![100000, n]⟩ ![0, 1] := by decide)
    (h2 : (⟨1, ![100000]⟩ : Shape).BroadcastsInDim ⟨2, ![100000, 1]⟩ ![0] := by decide)
    (h3 : (⟨0, ![]⟩ : Shape).BroadcastsInDim ⟨1, ![100000]⟩ ![] := by decide)
    (h4 : (⟨2, ![1, n]⟩ : Shape).BroadcastsInDim ⟨2, ![100000, n]⟩ ![0, 1] := by decide)
    (h5 : (⟨1, ![n]⟩ : Shape).BroadcastsInDim ⟨2, ![1, n]⟩ ![1] := by decide) : FVec Ideal ⟨2, ![100000, n]⟩ .f32 :=
  addf (F := Ideal) (addf (F := Ideal) (Host.divf (F := Ideal) a (broadcastInDim _ ![0, 1] h1 (broadcastInDim _ ![0] h2
      (maximumf (F := Ideal) dg (broadcastInDim _ ![] h3 (constant (F := Ideal) ⟨0, ![]⟩ .f32 0x3F800000#32)))))) r)
    (broadcastInDim _ ![0, 1] h4 (broadcastInDim _ ![1] h5 b))

/-- At entry (p, q) it is the mean of row p, its root term and the bias at q. -/
theorem upd_at {n : ℕ} (a r : FVec Ideal ⟨2, ![100000, n]⟩ .f32) (dg : FVec Ideal ⟨1, ![100000]⟩ .f32) (b : FVec Ideal ⟨1, ![n]⟩ .f32)
    (h1 h2 h3 h4 h5) (p : Fin 100000) (q : Fin n) :
    upd a r dg b h1 h2 h3 h4 h5 (ix2 p q) = meanK (a (ix2 p q)) (dg (ix1 p)) (r (ix2 p q)) (b (ix1 q)) := by
  rw [Shape.Idx.eq_ofFin (ix1 p), Shape.Idx.eq_ofFin (ix1 q)]
  exact congr (congrArg (fun x y => Ideal.div (a (ix2 p q)) x + r (ix2 p q) + y) (bcast_rows h2 h1 _ p q)) (bcast_cols h5 h4 b p q)

def eluR (x : S100000x16.Idx → EReal) : S100000x16.Idx → EReal :=
  select (cmpf (F := Ideal) .ogt x (broadcastInDim S100000x16 ![] bcast_S_S100000x16 (constant (F := Ideal) S_ .f32 0x00000000#32))) x
    (mulf (F := Ideal) (broadcastInDim S100000x16 ![] bcast_S_S100000x16 (constant (F := Ideal) S_ .f32 0x3F800000#32))
      (Host.expm1 (F := Ideal) (select (cmpf (F := Ideal) .ogt x (broadcastInDim S100000x16 ![] bcast_S_S100000x16 (constant (F := Ideal) S_ .f32 0x00000000#32)))
        (broadcastInDim S100000x16 ![] bcast_S_S100000x16 (constant (F := Ideal) S_ .f32 0x00000000#32)) x)))

variable (W : Valuation τ sig (Elt Ideal))

theorem r_v36_of : StableHlo.after ops2 W (Proc.devRef .tc main_v36) = segSum (W main_v3) (W main_v33) := by
  unfold segSum
  after_results
  rfl

theorem r_v40_of : StableHlo.after ops2 W (Proc.devRef .tc main_v40) = deg (W main_v3) := by
  unfold deg
  after_results
  rfl

theorem r_v50_of : StableHlo.after ops3 W (Proc.devRef .tc main_v50)
    = upd (n := 16) (W main_v36) (StableHlo.after ops3 W (Proc.devRef .tc main_v46)) (W main_v40) (W main_arg5) := by
  unfold upd
  after_results_simp

theorem r_v51_of : StableHlo.after ops4 W (Proc.devRef .tc main_v51) = eluR (W main_v50) := by
  unfold eluR
  after_results
  simp only [StableHlo.TRef.ofBuf, StableHlo.TRef.toBuf, cast_eq, id_eq]

theorem r_v84_of : StableHlo.after ops7 W (Proc.devRef .tc main_v84) = segSum10 (W main_v3) (W main_v81) := by
  unfold segSum10
  after_results
  rfl

theorem r_v88_of : StableHlo.after ops7 W (Proc.devRef .tc main_v88) = deg (W main_v3) := by
  unfold deg
  after_results
  rfl

theorem r_v98_of : StableHlo.after ops8 W (Proc.devRef .tc main_v98)
    = upd (n := 10) (W main_v84) (StableHlo.after ops8 W (Proc.devRef .tc main_v94)) (W main_v88) (W main_arg8) := by
  unfold upd
  after_results_simp

variable (m' : (ℓ : Loc nD τ sig) → Buf (Elt Ideal) ℓ) (c : Dev nD)

theorem r_dst : RV1 m' c main_v3 = shapeCast S1600000 (extractStridedSlice S1x1600000 ![1, 0] (m' ((c : Thread nD τ).loc main_arg1)) slices_S2x1600000_S1x1600000_1_0) shapeCasts_S1x1600000_S1600000 := by
  refine (StableHlo.after_of_writes_sub ops1 _ ops1_writes (by decide)).trans ?_
  show StableHlo.after ops0 (fun b => m' (c, b)) (Proc.devRef .tc main_v3) = _
  after_results
  rfl

/-- The first layer's activations in the reference program: the unit of the update of the segment sums over the destination index. -/
theorem ref1 : RV4 m' c main_v51 = eluR (upd (n := 16) (segSum (RV1 m' c main_v3) (RV1 m' c main_v33)) (RV3 m' c main_v46)
      (deg (RV1 m' c main_v3)) (m' ((c : Thread nD τ).loc main_arg5))) := by
  have e36 : RV2 m' c main_v36 = _ := r_v36_of (RV1 m' c)
  have e40 : RV2 m' c main_v40 = _ := r_v40_of (RV1 m' c)
  have e50 : RV3 m' c main_v50 = _ := r_v50_of (RV2 m' c)
  have e51 : RV4 m' c main_v51 = _ := r_v51_of (RV3 m' c)
  rw [e51, e50, e36, e40]
  simp (disch := decide) only [StableHlo.after_of_writes_sub _ _ ops2_writes, StableHlo.after_of_writes_sub _ _ ops1_writes,
    StableHlo.after_of_writes_sub _ _ ops0_writes]

/-- The result in the reference program: the update of the segment sums over the destination index. -/
theorem ref2 : RV8 m' c main_v98 = upd (n := 10) (segSum10 (RV1 m' c main_v3) (RV6 m' c main_v81)) (RV8 m' c main_v94)
      (deg (RV1 m' c main_v3)) (m' ((c : Thread nD τ).loc main_arg8)) := by
  have e84 : RV7 m' c main_v84 = _ := r_v84_of (RV6 m' c)
  have e88 : RV7 m' c main_v88 = _ := r_v88_of (RV6 m' c)
  have e98 : RV8 m' c main_v98 = _ := r_v98_of (RV7 m' c)
  rw [e98, e84, e88]
  simp (disch := decide) only [StableHlo.after_of_writes_sub _ _ ops7_writes, StableHlo.after_of_writes_sub _ _ ops6_writes,
    StableHlo.after_of_writes_sub _ _ ops5_writes, StableHlo.after_of_writes_sub _ _ ops4_writes, StableHlo.after_of_writes_sub _ _ ops3_writes,
    StableHlo.after_of_writes_sub _ _ ops2_writes, StableHlo.after_of_writes_sub _ _ ops1_writes, StableHlo.after_of_writes_sub _ _ ops0_writes]

theorem hostExpm1_at {s : Shape} {φ : FTy} (a : FVec Ideal s φ) (i : s.Idx) : Host.expm1 a i = Ideal.exp (a i) - 1 := rfl

/-- The kernel's first-layer node update is the reference's: the unit of the update, entry by entry. -/
theorem node_update_law (a r : S100000x16.Idx → EReal) (dg : S100000.Idx → EReal) (b : S16.Idx → EReal)
    (h1 : S100000.ShapeCasts S100000x1) (h2 : S16.ShapeCasts S1x16) :
    combine eluK a r (shapeCast S100000x1 dg h1) (shapeCast S1x16 b h2) = eluR (upd (n := 16) a r dg b) := by
  funext i
  obtain ⟨p, q, rfl⟩ : ∃ (p : Fin 100000) (q : Fin 16), i = ix2 p q := ⟨i 0, i 1, eq_ix2 i⟩
  rw [combine_cast, elu_law]
  unfold eluR
  simp only [select_apply, cmpf_apply, mulf_apply, hostExpm1_at, broadcastInDim_scalar_apply, upd_at]
  rfl

/-- The kernel's second-layer node update is the reference's, entry by entry. -/
theorem node_update_law2 (a r : S100000x10.Idx → EReal) (dg : S100000.Idx → EReal) (b : S10.Idx → EReal)
    (h1 : S100000.ShapeCasts S100000x1) (h2 : S10.ShapeCasts S1x10) :
    combine id a r (shapeCast S100000x1 dg h1) (shapeCast S1x10 b h2) = upd (n := 10) a r dg b := by
  funext i
  obtain ⟨p, q, rfl⟩ : ∃ (p : Fin 100000) (q : Fin 10), i = ix2 p q := ⟨i 0, i 1, eq_ix2 i⟩
  rw [combine_cast, upd_at]
  rfl

end RefSide

open Cert.KernelIdeal.Frm Cert.ReferenceIdeal.RefRun in

theorem comb1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)))
    (h15 : Y6 m c Cert.KernelIdeal.main_v15 = RV1 m' c Cert.ReferenceIdeal.main_v33)
    (h12 : Y3 m c Cert.KernelIdeal.main_v12 = RV3 m' c Cert.ReferenceIdeal.main_v46) :
    Y8 m c Cert.KernelIdeal.main_v25 = RV4 m' c Cert.ReferenceIdeal.main_v51 := by
  rw [kernel1, ref1, k_dst, r_dst, (hagree c).2.1, h15, h12, (hagree c).2.2.2.2.2.1]
  exact node_update_law _ _ _ _ _ _

open Cert.KernelIdeal.Frm Cert.ReferenceIdeal.RefRun in

theorem comb2 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)))
    (h37 : Y14 m c Cert.KernelIdeal.main_v37 = RV6 m' c Cert.ReferenceIdeal.main_v81)
    (h34 : Y11 m c Cert.KernelIdeal.main_v34 = RV8 m' c Cert.ReferenceIdeal.main_v94) :
    Y16 m c Cert.KernelIdeal.main_v47 = RV8 m' c Cert.ReferenceIdeal.main_v98 := by
  rw [kernel2, ref2, k_dst, r_dst, (hagree c).2.1, h37, h34, (hagree c).2.2.2.2.2.2.2.2]
  exact node_update_law2 _ _ _ _ _ _

end Cert.Bridge
end
-- ==== Proof.lean ====
import proofs.«417496_j30210799960814_2_alg».proof.Defs
import proofs.«417496_j30210799960814_2_alg».proof.Proof.K.Segs
import proofs.«417496_j30210799960814_2_alg».proof.Proof.KI.RunV
import proofs.«417496_j30210799960814_2_alg».proof.Proof.Ref.Run
import proofs.«417496_j30210799960814_2_alg».proof.Proof.PreRange
import proofs.«417496_j30210799960814_2_alg».proof.Proof.Val.MatBridge
import proofs.«417496_j30210799960814_2_alg».proof.Proof.Val.BlendBridge
import proofs.«417496_j30210799960814_2_alg».proof.Proof.Val.BlendBridge2
import proofs.«417496_j30210799960814_2_alg».proof.Proof.Val.CombBridge
import proofs.«417496_j30210799960814_2_alg».proof.Proof.Gen.Kernel
import proofs.«417496_j30210799960814_2_alg».proof.Proof.Gen.KernelIdeal
import proofs.«417496_j30210799960814_2_alg».proof.Proof.Gen.ReferenceIdeal
import proofs.«417496_j30210799960814_2_alg».proof.Proof.Gen.Pre_finite_inputs

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frm.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Frm.b16 (F := Ideal) m c, Cert.KernelIdeal.Frm.run_v47 (F := Ideal) m ρ, ?_⟩
  refine (θ_run (Cert.ReferenceIdeal.defs (F := Ideal)) _ _).mono (fun r h c => ⟨(h c).1.trans ?_, (h c).2⟩)
    (Cert.ReferenceIdeal.RefRun.run (F := Ideal) m' ρ')
  have hr := fun i hi => Cert.PreRange.src_range m hpre c i hi
  obtain ⟨h10, h11, h12⟩ := Cert.Bridge.mat1 m m' c hagree
  have h15 := Cert.Bridge.blend1 m m' c hagree hr h10 h11
  have h25 := Cert.Bridge.comb1 m m' c hagree h15 h12
  obtain ⟨h32, h33, h34⟩ := Cert.Bridge.mat2 m m' c hagree h25
  have h37 := Cert.Bridge.blend2 m m' c hagree hr h32 h33
  have h47 := Cert.Bridge.comb2 m m' c hagree h37 h34
  exact h47.symm.trans (Cert.KernelIdeal.Frm.Y16_out (F := Ideal) m c)

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame, trivial, algebraic⟩

end Cert.Proof

end
